-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg7 : FVec F S64 .f32) (main_arg8 : FVec F S64x8 .f32) (main_arg9 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg8
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg9
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : IVec S50000 32) (main_arg4 : FVec F S64x64 .f32) (main_arg5 : FVec F S64 .f32) (main_arg6 : FVec F S64x64 .f32) (main_arg7 : FVec F S64 .f32) (main_arg8 : FVec F S64x8 .f32) (main_arg9 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S50000x64 : Shape := ⟨2, ![50000, 64]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩
abbrev S800000x1 : Shape := ⟨2, ![800000, 1]⟩
abbrev S5000x64 : Shape := ⟨2, ![5000, 64]⟩
abbrev S800000x64 : Shape := ⟨2, ![800000, 64]⟩
abbrev S1x64 : Shape := ⟨2, ![1, 64]⟩
abbrev S50000x1 : Shape := ⟨2, ![50000, 1]⟩
abbrev S5000x1 : Shape := ⟨2, ![5000, 1]⟩
abbrev S1x8 : Shape := ⟨2, ![1, 8]⟩
abbrev S128x8 : Shape := ⟨2, ![128, 8]⟩
abbrev S64x128 : Shape := ⟨2, ![64, 128]⟩
abbrev S1x128 : Shape := ⟨2, ![1, 128]⟩
abbrev S5000x128 : Shape := ⟨2, ![5000, 128]⟩
abbrev S128 : Shape := ⟨1, ![128]⟩

abbrev nBuf : Space → Nat
  | .hbm => 92
  | .vmem => 37
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x8, .f32⟩
  | .hbm, ⟨9, _⟩ => ⟨S8, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S800000x1, .f32⟩
  | .hbm, ⟨60, _⟩ => ⟨S800000x64, .f32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S1x64, .f32⟩
  | .hbm, ⟨67, _⟩ => ⟨S50000x1, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x1, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S1x64, .f32⟩
  | .hbm, ⟨87, _⟩ => ⟨S50000x1, .f32⟩
  | .hbm, ⟨88, _⟩ => ⟨S50000x64, .f32⟩
  | .hbm, ⟨89, _⟩ => ⟨S50000x1, .i32⟩
  | .hbm, ⟨90, _⟩ => ⟨S1x8, .f32⟩
  | .hbm, ⟨91, _⟩ => ⟨S128x8, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .i32⟩
  | .local _ .vmem, ⟨31, _⟩ => ⟨S5000x1, .i32⟩
  | .local _ .vmem, ⟨32, _⟩ => ⟨S64x8, .f32⟩
  | .local _ .vmem, ⟨33, _⟩ => ⟨S1x8, .f32⟩
  | .local _ .vmem, ⟨34, _⟩ => ⟨S128x8, .f32⟩
  | .local _ .vmem, ⟨35, _⟩ => ⟨S64x128, .f32⟩
  | .local _ .vmem, ⟨36, _⟩ => ⟨S1x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_scratch0 : Ref sig .tc := ⟨.vmem, 35, rfl⟩
abbrev cc4_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_13 : BitVec 32 := 0#32
  let v29 : BitVec 1 := Scalar.cmpi .ne v28 c0_i32_13
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S50000_S50000x1 : S50000.ShapeCasts S50000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S5000x128_d1_w32 : S5000x128.Iotas .tc 32 [1]
  broadcasts_S5000x1_S5000x128 : S5000x1.Broadcasts S5000x128
  natLt_1_32 : 1 < 32
  reduces_S5000x128_S128 : S5000x128.Reduces [0] S128
  shapeCasts_S128_S1x128 : S128.ShapeCasts S1x128
  broadcasts_S1x128_S64x128 : S1x128.Broadcasts S64x128
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S128x8 : S1x8.Broadcasts S128x8
  inb_S128x8_S128x8_0_0 : ∀ a, (![0, 0] : Fin 2 → Nat) a + S128x8.size a ≤ S128x8.size a
  h_S128x8 : 0 < S128x8.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S5000x128_S64x128_0_0_1_1_n_n_wf : DotDims.WF S5000x64 S5000x128 S64x128 [0] [0] [1] [1] [] []
  dot_S64x128_S64x8_S128x8_0_0_1_1_n_n_wf : DotDims.WF S64x128 S64x8 S128x8 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x8.size a ≤ S64x8.size a
  hwx4_2 : ∀ i : grid4.Coords, EltTy.bits .f32 = 32 ∨ (Rect.block (s := S64x8) S64x8.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x8.size a ≤ S1x8.size a
  hwx4_3 : ∀ i : grid4.Coords, EltTy.bits .f32 = 32 ∨ (Rect.block (s := S1x8) S1x8.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x8.size a ≤ S128x8.size a
  hwx4_4 : ∀ i : grid4.Coords, EltTy.bits .f32 = 32 ∨ (Rect.block (s := S128x8) S128x8.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S64x8_S128x8_0_0_1_1_n_n : DotDims S64x128 S64x8 S128x8 where
  lhsContracting := [0]
  rhsContracting := [0]
  lhsNonContracting := [1]
  rhsNonContracting := [1]
  lhsBatch := []
  rhsBatch := []
  wf := dot_S64x128_S64x8_S128x8_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x8.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S128x8.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x8 : Shape := ⟨2, ![128, 8]⟩
abbrev S1x8 : Shape := ⟨2, ![1, 8]⟩

abbrev nBuf : Space → Nat
  | .hbm => 158
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S50000, .i32⟩
  | 4 => ⟨S64x64, .f32⟩
  | 5 => ⟨S64, .f32⟩
  | 6 => ⟨S64x64, .f32⟩
  | 7 => ⟨S64, .f32⟩
  | 8 => ⟨S64x8, .f32⟩
  | 9 => ⟨S8, .f32⟩
  | 10 => ⟨S50000x64, .f32⟩
  | 11 => ⟨S_, .f32⟩
  | 12 => ⟨S800000, .f32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S800000x1, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S_, .f32⟩
  | 64 => ⟨S50000, .f32⟩
  | 65 => ⟨S50000, .f32⟩
  | 66 => ⟨S50000x1, .f32⟩
  | 67 => ⟨S50000x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S50000x64, .f32⟩
  | 74 => ⟨S50000x64, .f32⟩
  | 75 => ⟨S_, .f32⟩
  | 76 => ⟨S800000, .f32⟩
  | 77 => ⟨S_, .f32⟩
  | 78 => ⟨S50000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x1, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S_, .f32⟩
  | _ => ⟨S50000x64, .f32⟩

abbrev hbmTy0_1 (i : Nat) : BufTy := match i % 128 with
  | 0 => ⟨S50000, .f32⟩
  | 1 => ⟨S50000, .f32⟩
  | 2 => ⟨S50000x1, .f32⟩
  | 3 => ⟨S50000x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S50000x64, .f32⟩
  | 10 => ⟨S_, .f32⟩
  | 11 => ⟨S128x64, .f32⟩
  | 12 => ⟨S50000x1, .i32⟩
  | 13 => ⟨S128x64, .f32⟩
  | 14 => ⟨S_, .f32⟩
  | 15 => ⟨S50000, .f32⟩
  | 16 => ⟨S_, .f32⟩
  | 17 => ⟨S128, .f32⟩
  | 18 => ⟨S50000x1, .i32⟩
  | 19 => ⟨S128, .f32⟩
  | 20 => ⟨S_, .f32⟩
  | 21 => ⟨S128, .f32⟩
  | 22 => ⟨S128, .f32⟩
  | 23 => ⟨S128x1, .f32⟩
  | 24 => ⟨S128x64, .f32⟩
  | 25 => ⟨S128x64, .f32⟩
  | 26 => ⟨S128x8, .f32⟩
  | 27 => ⟨S1x8, .f32⟩
  | 28 => ⟨S128x8, .f32⟩
  | 29 => ⟨S128x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_c_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_22 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_23 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_cst_26 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_27 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  dot_S128x64_S64x8_S128x8_1_0_0_1_n_n_wf : DotDims.WF S128x64 S64x8 S128x8 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf

class Facts : Prop extends Facts₀ where

variable [Facts]
-- ==== Proof.K.R0.lean ====
import proofs.«403130_j26560077758926_1_alg».proof.Proof.Gen.Kernel.Launch
import proofs.«403130_j26560077758926_1_alg».proof.Proof.Gen.Kernel.Skeleton
import proofs.«403130_j26560077758926_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block as a function of the two input blocks: their matrix product, both rounded to bf16 first. -/
def out0_2 (x0 : Vec F S5000x64 .f32) (x1 : Vec F S64x64 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0))⟩]

/-- Every load and the one store cover a whole block, so what is stored is the payload of the loaded blocks and the inputs are untouched. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«403130_j26560077758926_1_alg».proof.Proof.Gen.Kernel.Launch
import proofs.«403130_j26560077758926_1_alg».proof.Proof.Gen.Kernel.Skeleton
import proofs.«403130_j26560077758926_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block as a function of the four input blocks: tanh (x0 + x1 · column + row), the column and the row spread over the block. -/
def out1_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x1) ![0, 0] S5000x1.size inb_S5000x1_S5000x1_0_0)) (View.ld x3 (Rect.unit (s := S1x64) ![0, 0] S1x64.size inb_S1x64_S1x64_0_0))⟩]

set_option maxHeartbeats 1000000 in
/-- Every load and the one store cover a whole block, so what is stored is the payload of the loaded blocks and the inputs are untouched. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_tanh_kernel i arg1 harg1 arg2 harg2 arg3 harg3 arg4 harg4 arg5 harg5) K := by
  simp only [cc1__combine_tanh_kernel_eq_skeleton]; unfold cc1__combine_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«403130_j26560077758926_1_alg».proof.Proof.Gen.Kernel.Launch
import proofs.«403130_j26560077758926_1_alg».proof.Proof.Gen.Kernel.Skeleton
import proofs.«403130_j26560077758926_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block as a function of the two input blocks: their matrix product, both rounded to bf16 first. -/
def out2_2 (x0 : Vec F S5000x64 .f32) (x1 : Vec F S64x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0))⟩]

/-- Every load and the one store cover a whole block, so what is stored is the payload of the loaded blocks and the inputs are untouched. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«403130_j26560077758926_1_alg».proof.Proof.Gen.Kernel.Launch
import proofs.«403130_j26560077758926_1_alg».proof.Proof.Gen.Kernel.Skeleton
import proofs.«403130_j26560077758926_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block as a function of the four input blocks: tanh (x0 + x1 · column + row), the column and the row spread over the block. -/
def out3_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x1) ![0, 0] S5000x1.size inb_S5000x1_S5000x1_0_0)) (View.ld x3 (Rect.unit (s := S1x64) ![0, 0] S1x64.size inb_S1x64_S1x64_0_0))⟩]

set_option maxHeartbeats 1000000 in
/-- Every load and the one store cover a whole block, so what is stored is the payload of the loaded blocks and the inputs are untouched. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_tanh_kernel i arg1 harg1 arg2 harg2 arg3 harg3 arg4 harg4 arg5 harg5) K := by
  simp only [cc3__combine_tanh_kernel_eq_skeleton]; unfold cc3__combine_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«403130_j26560077758926_1_alg».proof.Proof.Gen.Kernel.Launch
import proofs.«403130_j26560077758926_1_alg».proof.Proof.Gen.Kernel.Skeleton
import proofs.«403130_j26560077758926_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4 : ∀ (w : Fin cfg4.W) (t : Fin cfg4.N), w ≠ 4 → cfg4.idle w (grid4.coords t) = false := by decide +kernel
theorem idleAt4_4 : ∀ t : Fin cfg4.N, ¬t.val % 10 = 9 → cfg4.idle 4 (grid4.coords t) = true := by decide +kernel
theorem noFlush4_4 : ∀ t : Fin cfg4.N, ¬t.val % 10 = 9 → (cfg4.win 4).flush t = false := by decide +kernel
theorem liveAt4_4 : ∀ t : Fin cfg4.N, t.val % 10 = 9 → cfg4.idle 4 (grid4.coords t) = false := by decide +kernel

abbrev VO4_4 : View sig .tc .vmem S128x8 .f32 := (Memref.whole cc4_stg4_0 : Memref sig .tc .vmem S128x8 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x8 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x8 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x8 .f32 := win4_4.stage (cfg4.slots t 4)
abbrev hs4_4 (t : Fin cfg4.N) : (ms4_4 t).IsWhole := hstage4_4 ((cfg4.slots t 4).cast nbuf4_4)
abbrev scM4_0 : Memref sig .tc .vmem S64x128 .f32 := Memref.whole cc4_scratch0
abbrev scM4_1 : Memref sig .tc .vmem S1x128 .f32 := Memref.whole cc4_scratch1
abbrev VS4_0 : View sig .tc .vmem S64x128 .f32 := scM4_0.view
abbrev VS4_1 : View sig .tc .vmem S1x128 .f32 := scM4_1.view

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop((iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

section
variable (c : Dev nD) (i : grid4.Coords) (arg1 : Memref sig .tc .vmem S5000x64 .f32) (harg1 : arg1.IsWhole) (arg2 : Memref sig .tc .vmem S5000x1 .i32) (harg2 : arg2.IsWhole) (arg3 : Memref sig .tc .vmem S64x8 .f32) (harg3 : arg3.IsWhole) (arg4 : Memref sig .tc .vmem S1x8 .f32) (harg4 : arg4.IsWhole) (arg5 : Memref sig .tc .vmem S128x8 .f32) (harg5 : arg5.IsWhole) (arg6 : Memref sig .tc .vmem S64x128 .f32) (harg6 : arg6.IsWhole) (arg7 : Memref sig .tc .vmem S1x128 .f32) (harg7 : arg7.IsWhole)

section
variable (hc0 : cond4_0 i) (hc1 : ¬cond4_1 i) (x0 : Vec F S5000x64 .f32) (x1 : Vec F S5000x1 .i32) (x2 : Vec F S64x8 .f32) (x3 : Vec F S1x8 .f32)

set_option maxHeartbeats 2000000 in
def kernelRun4_A :
    Σ' (L4 : List (View.Piece (Elt F) S128x8 .f32)), Σ' (LS0 : List (View.Piece (Elt F) S64x128 .f32)), { LS1 : List (View.Piece (Elt F) S1x128 .f32) //
      ∀ (xi4 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_linear_kernel i arg1 harg1 arg2 harg2 arg3 harg3 arg4 harg4 arg5 harg5 arg6 harg6 arg7 harg7) K } := by
  refine ⟨[], ?_, ?_, fun xi4 E K => ?run⟩
  case run =>
    simp only [cc4__pool_linear_kernel_eq_skeleton]; unfold cc4__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

def out4_A_4 : Vec F S128x8 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2 x3).1)

theorem scover4_A_0 (y : S64x128.Idx) : ∃ pc ∈ (kernelRun4_A c i arg1 harg1 arg2 harg2 arg3 harg3 arg4 harg4 arg5 harg5 arg6 harg6 arg7 harg7 hc0 hc1 x0 x1 x2 x3).2.1, y ∈ pc.1.set :=
  View.cover_of_tiledL _ S64x128.size (by sl_kernel_rfl) y

def sout4_A_0 : Vec F S64x128 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2 x3).2.1)

theorem scover4_A_1 (y : S1x128.Idx) : ∃ pc ∈ (kernelRun4_A c i arg1 harg1 arg2 harg2 arg3 harg3 arg4 harg4 arg5 harg5 arg6 harg6 arg7 harg7 hc0 hc1 x0 x1 x2 x3).2.2.1, y ∈ pc.1.set :=
  View.cover_of_tiledL _ S1x128.size (by sl_kernel_rfl) y

def sout4_A_1 : Vec F S1x128 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1 x2 x3).2.2.1)

def outs4_A :=
  (out4_A_4 c i arg1 harg1 arg2 harg2 arg3 harg3 arg4 harg4 arg5 harg5 arg6 harg6 arg7 harg7 hc0 hc1 x0 x1 x2 x3, sout4_A_0 c i arg1 harg1 arg2 harg2 arg3 harg3 arg4 harg4 arg5 harg5 arg6 harg6 arg7 harg7 hc0 hc1 x0 x1 x2 x3, sout4_A_1 c i arg1 harg1 arg2 harg2 arg3 harg3 arg4 harg4 arg5 harg5 arg6 harg6 arg7 harg7 hc0 hc1 x0 x1 x2 x3)

end

section
variable (hc0 : ¬cond4_0 i) (hc1 : ¬cond4_1 i) (x0 : Vec F S5000x64 .f32) (x1 : Vec F S5000x1 .i32) (x2 : Vec F S64x8 .f32) (x3 : Vec F S1x8 .f32) (xs0 : Vec F S64x128 .f32) (xs1 : Vec F S1x128 .f32)

set_option maxHeartbeats 2000000 in
def kernelRun4_B :
    Σ' (L4 : List (View.Piece (Elt F) S128x8 .f32)), Σ' (LS0 : List (View.Piece (Elt F) S64x128 .f32)), { LS1 : List (View.Piece (Elt F) S1x128 .f32) //
      ∀ (xi4 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_linear_kernel i arg1 harg1 arg2 harg2 arg3 harg3 arg4 harg4 arg5 harg5 arg6 harg6 arg7 harg7) K } := by
  refine ⟨[], ?_, ?_, fun xi4 E K => ?run⟩
  case run =>
    simp only [cc4__pool_linear_kernel_eq_skeleton]; unfold cc4__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

def out4_B_4 : Vec F S128x8 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 x3 xs0 xs1).1)

theorem scover4_B_0 (y : S64x128.Idx) : ∃ pc ∈ (kernelRun4_B c i arg1 harg1 arg2 harg2 arg3 harg3 arg4 harg4 arg5 harg5 arg6 harg6 arg7 harg7 hc0 hc1 x0 x1 x2 x3 xs0 xs1).2.1, y ∈ pc.1.set :=
  View.cover_of_tiledL _ S64x128.size (by sl_kernel_rfl) y

def sout4_B_0 : Vec F S64x128 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 x3 xs0 xs1).2.1)

theorem scover4_B_1 (y : S1x128.Idx) : ∃ pc ∈ (kernelRun4_B c i arg1 harg1 arg2 harg2 arg3 harg3 arg4 harg4 arg5 harg5 arg6 harg6 arg7 harg7 hc0 hc1 x0 x1 x2 x3 xs0 xs1).2.2.1, y ∈ pc.1.set :=
  View.cover_of_tiledL _ S1x128.size (by sl_kernel_rfl) y

def sout4_B_1 : Vec F S1x128 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 x2 x3 xs0 xs1).2.2.1)

def outs4_B :=
  (out4_B_4 c i arg1 harg1 arg2 harg2 arg3 harg3 arg4 harg4 arg5 harg5 arg6 harg6 arg7 harg7 hc0 hc1 x0 x1 x2 x3 xs0 xs1, sout4_B_0 c i arg1 harg1 arg2 harg2 arg3 harg3 arg4 harg4 arg5 harg5 arg6 harg6 arg7 harg7 hc0 hc1 x0 x1 x2 x3 xs0 xs1, sout4_B_1 c i arg1 harg1 arg2 harg2 arg3 harg3 arg4 harg4 arg5 harg5 arg6 harg6 arg7 harg7 hc0 hc1 x0 x1 x2 x3 xs0 xs1)

end

section
variable (hc0 : ¬cond4_0 i) (hc1 : cond4_1 i) (x0 : Vec F S5000x64 .f32) (x1 : Vec F S5000x1 .i32) (x2 : Vec F S64x8 .f32) (x3 : Vec F S1x8 .f32) (xs0 : Vec F S64x128 .f32) (xs1 : Vec F S1x128 .f32)

set_option maxHeartbeats 2000000 in
def kernelRun4_C :
    Σ' (L4 : List (View.Piece (Elt F) S128x8 .f32)), Σ' (LS0 : List (View.Piece (Elt F) S64x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_linear_kernel i arg1 harg1 arg2 harg2 arg3 harg3 arg4 harg4 arg5 harg5 arg6 harg6 arg7 harg7) K } := by
  refine ⟨?_, ?_, ?_, fun E K => ?run⟩
  case run =>
    simp only [cc4__pool_linear_kernel_eq_skeleton]; unfold cc4__pool_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

def out4_C_4 : Vec F S128x8 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 x3 xs0 xs1).1)

theorem cover4_C_4 (y : S128x8.Idx) : ∃ pc ∈ (kernelRun4_C c i arg1 harg1 arg2 harg2 arg3 harg3 arg4 harg4 arg5 harg5 arg6 harg6 arg7 harg7 hc0 hc1 x0 x1 x2 x3 xs0 xs1).1, y ∈ pc.1.set :=
  View.cover_of_tiledL _ S128x8.size (by sl_kernel_rfl) y

theorem scover4_C_0 (y : S64x128.Idx) : ∃ pc ∈ (kernelRun4_C c i arg1 harg1 arg2 harg2 arg3 harg3 arg4 harg4 arg5 harg5 arg6 harg6 arg7 harg7 hc0 hc1 x0 x1 x2 x3 xs0 xs1).2.1, y ∈ pc.1.set :=
  View.cover_of_tiledL _ S64x128.size (by sl_kernel_rfl) y

def sout4_C_0 : Vec F S64x128 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 x3 xs0 xs1).2.1)

theorem scover4_C_1 (y : S1x128.Idx) : ∃ pc ∈ (kernelRun4_C c i arg1 harg1 arg2 harg2 arg3 harg3 arg4 harg4 arg5 harg5 arg6 harg6 arg7 harg7 hc0 hc1 x0 x1 x2 x3 xs0 xs1).2.2.1, y ∈ pc.1.set :=
  View.cover_of_tiledL _ S1x128.size (by sl_kernel_rfl) y

def sout4_C_1 : Vec F S1x128 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 x2 x3 xs0 xs1).2.2.1)

def outs4_C :=
  (out4_C_4 c i arg1 harg1 arg2 harg2 arg3 harg3 arg4 harg4 arg5 harg5 arg6 harg6 arg7 harg7 hc0 hc1 x0 x1 x2 x3 xs0 xs1, sout4_C_0 c i arg1 harg1 arg2 harg2 arg3 harg3 arg4 harg4 arg5 harg5 arg6 harg6 arg7 harg7 hc0 hc1 x0 x1 x2 x3 xs0 xs1, sout4_C_1 c i arg1 harg1 arg2 harg2 arg3 harg3 arg4 harg4 arg5 harg5 arg6 harg6 arg7 harg7 hc0 hc1 x0 x1 x2 x3 xs0 xs1)

end

end

theorem ne0_4 {n : ℕ} (hn : n + 1 < cfg4.N) : ¬(n + 1) % 10 = 0 := by have : cfg4.N = 10 := N_4; omega

section
variable (c : Dev nD) (t : Fin cfg4.N)

def caseA4 (h0 : t.val % 10 = 0) (h1 : ¬t.val % 10 = 9) :=
  outs4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

def caseB4 (h0 : ¬t.val % 10 = 0) (h1 : ¬t.val % 10 = 9) (p : Vec F S64x128 .f32 × Vec F S1x128 .f32) :=
  outs4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) p.1 p.2

def caseC4 (h0 : ¬t.val % 10 = 0) (h1 : t.val % 10 = 9) (p : Vec F S64x128 .f32 × Vec F S1x128 .f32) :=
  outs4_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) p.1 p.2

end

def outsAt4 (c : Dev nD) : (n : ℕ) → n < cfg4.N → Vec F S128x8 .f32 × Vec F S64x128 .f32 × Vec F S1x128 .f32
  | 0, hn => caseA4 V c ⟨0, hn⟩ (Nat.zero_mod _) (by show ¬0 % 10 = 9; decide)
  | n + 1, hn =>
    if h1 : (n + 1) % 10 = 9 then caseC4 V c ⟨n + 1, hn⟩ (ne0_4 hn) h1 (outsAt4 c n (Nat.lt_of_succ_lt hn)).2
    else caseB4 V c ⟨n + 1, hn⟩ (ne0_4 hn) h1 (outsAt4 c n (Nat.lt_of_succ_lt hn)).2

section
variable (c : Dev nD) (t : Fin cfg4.N)

theorem outsAt4_A (h0 : t.val % 10 = 0) (h1 : ¬t.val % 10 = 9) : outsAt4 V c t.val t.isLt = delta% delta% caseA4 V c t h0 h1 := by
  obtain ⟨n, hn⟩ := t
  cases n with
  | zero => rfl
  | succ n => exact absurd h0 (ne0_4 hn)

theorem outsAt4_B (h0 : ¬t.val % 10 = 0) (h1 : ¬t.val % 10 = 9) :
    outsAt4 V c t.val t.isLt = delta% delta% caseB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h1).trans rfl

theorem outsAt4_C (h0 : ¬t.val % 10 = 0) (h1 : t.val % 10 = 9) :
    outsAt4 V c t.val t.isLt = delta% delta% caseC4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_pos h1).trans rfl

end

-- After a point: the two carried buffers at the contents p, the rest as the launch left it.
def inv4 (c : Dev nD) (p : Vec F S64x128 .f32 × Vec F S1x128 .f32) : sProp 𝕄 :=
  iprop((iprop(owns (c : Thread nD τ) scM4_0 fullShare p.1 ∗ owns (c : Thread nD τ) scM4_1 fullShare p.2) ∗ rest4 (F := F) c) ∗ (∃ r, prngReg c r))

def PhiS4 (c : Dev nD) : (n : ℕ) → n ≤ cfg4.N → sProp 𝕄
  | 0, _ => Pipeline.ΦA spec4 c
  | n + 1, hn => inv4 c (outsAt4 V c n hn).2

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) : PhiS4 V c (n + 1) hn = inv4 c (outsAt4 V c n hn).2 := rfl

theorem PhiS4_pos (c : Dev nD) (n : ℕ) (h : n ≤ cfg4.N) (hz : n ≠ 0) : PhiS4 V c n h = inv4 c (outsAt4 V c (n - 1) (by omega)).2 := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

-- Stores that cover a buffer fix what it reads, whatever it held before.
theorem owns_of_cover (c : Dev nD) {S : Shape} {e : EltTy} (m : Memref sig .tc .vmem S e) (v : View sig .tc .vmem S e) {L : List (View.Piece (Elt F) S e)}
    (h : ∀ y, ∃ pc ∈ L, y ∈ pc.1.set) :
    iprop(∃ f, m.view.loc (c : Thread nD τ) ↦[m.view.set]{fullShare} m.view.writes (Elt F) f L) ⊢ (owns (c : Thread nD τ) m fullShare (v.read (Elt F) (v.writes (Elt F) v.junk L)) : sProp 𝕄) := by
  iintro ⟨%f, H⟩; unfold owns; iexists m.view.writes (Elt F) f L; isplitr
  · ipureintro; exact View.read_writes_of_cover _ _ _ _ _ h
  · iexact H

-- A run that hands the four inputs back as found, framed by what it does not touch.
theorem frame4 (c : Dev nD) {α β0 β1 β2 β3 : Type} {e : Prog _ PUnit} {I0 I1 I2 I3 PS0 PS1 QS0 QS1 QS0' QS1' R G O Q4 : sProp 𝕄} {P4 P4' Q4' : α → sProp 𝕄}
    (run : ∀ x K, iprop(I0 ∗ I1 ∗ I2 ∗ I3 ∗ P4' x ∗ PS0 ∗ PS1 ∗ (iprop(I0 ∗ I1 ∗ I2 ∗ I3 ∗ Q4' x ∗ QS0' ∗ QS1') -∗ K ⟨⟩))
      ⊢ wp frame (wpE (defs₀ (F := F)) Variants.none c none) Set.univ e K)
    (h4 : ∀ x, P4 x ⊢ P4' x) (k4 : ∀ x, Q4' x ⊢ Q4) (k0 : QS0' ⊢ QS0) (k1 : QS1' ⊢ QS1) :
    iprop((iprop(iprop(PS0 ∗ PS1) ∗ R) ∗ G) ∗ O ∗ (∃ _d : β0, I0) ∗ (∃ _d : β1, I1) ∗ (∃ _d : β2, I2) ∗ (∃ _d : β3, I3) ∗ (∃ x, P4 x))
      ⊢ wp frame (wpE (defs₀ (F := F)) Variants.none c none) Set.univ e
          (fun _ => iprop((iprop(iprop(QS0 ∗ QS1) ∗ R) ∗ G) ∗ O ∗ I0 ∗ I1 ∗ I2 ∗ I3 ∗ Q4)) := by
  iintro ⟨⟨⟨⟨HS0, HS1⟩, Hrest⟩, Hg⟩, Ho, ⟨%d0, H0⟩, ⟨%d1, H1⟩, ⟨%d2, H2⟩, ⟨%d3, H3⟩, ⟨%x, H4⟩⟩
  iapply (run x _)
  isplitl [H0]; · iexact H0
  isplitl [H1]; · iexact H1
  isplitl [H2]; · iexact H2
  isplitl [H3]; · iexact H3
  isplitl [H4]; · iapply (h4 x); iexact H4
  isplitl [HS0]; · iexact HS0
  isplitl [HS1]; · iexact HS1
  iintro ⟨H0, H1, H2, H3, H4, HS0, HS1⟩
  isplitl [HS0 HS1 Hrest Hg]
  · isplitl [HS0 HS1 Hrest]
    · isplitl [HS0 HS1]
      · isplitl [HS0]
        · iapply k0; iexact HS0
        · iapply k1; iexact HS1
      iexact Hrest
    iexact Hg
  isplitl [Ho]; · iexact Ho
  isplitl [H0]; · iexact H0
  isplitl [H1]; · iexact H1
  isplitl [H2]; · iexact H2
  isplitl [H3]; · iexact H3
  iapply (k4 x); iexact H4

theorem leaves4 (c : Dev nD) (t : Fin cfg4.N) (w : Fin cfg4.W) (hl : cfg4.idle w (grid4.coords t) = false) :
    (dat4 V c).leavesExact w t = owns (c : Thread nD τ) ((cfg4.win w).stage (cfg4.slots t w)) fullShare ((dat4 V c).after w t) := by
  unfold Dat.leavesExact; rw [hl]

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  simp only [before4_0, before4_1, before4_2, before4_3]
  rw [show (dat4 V c).owesAt () t.succ = (dat4 V c).owesAt () t.castSucc from rfl,
    show (dat4 V c).Φ t.succ = PhiS4 V c (t.val + 1) t.isLt from rfl, PhiS4_succ, PhiS4_castSucc]
  have hN : t.val < 10 := lt_of_lt_of_eq t.isLt (show cfg4.N = 10 from N_4)
  rw [leaves4 V c t 0 (liveAt4 0 t (by decide)), after4_0, leaves4 V c t 1 (liveAt4 1 t (by decide)), after4_1,
    leaves4 V c t 2 (liveAt4 2 t (by decide)), after4_2, leaves4 V c t 3 (liveAt4 3 t (by decide)), after4_3]
  by_cases h1 : t.val % 10 = 9
  · have h0 : ¬t.val % 10 = 0 := by omega
    rw [leaves4 V c t 4 (liveAt4_4 t h1), after4_4, outsAt4_C V c t h0 h1, PhiS4_pos V c _ _ (by omega)]
    unfold inv4 out4_C_4 sout4_C_0 sout4_C_1; dsimp only
    exact frame4 c (fun _ K => (kernelRun4_C c (grid4.coords t) _ _ _ _ _ _ _ _ _ _ _ _ _ _ (fun h => h0 ((hcond4_0 t).mp h)) ((hcond4_1 t).mpr h1) _ _ _ _ _ _).2.2.2 Set.univ K)
      (fun _ => by iintro H; iexists _; iexact H) (fun _ => owns_of_cover c _ VO4_4 (cover4_C_4 c (grid4.coords t) _ _ _ _ _ _ _ _ _ _ _ _ _ _ _ _ _ _ _ _ _ _))
      (owns_of_cover c _ VS4_0 (scover4_C_0 c (grid4.coords t) _ _ _ _ _ _ _ _ _ _ _ _ _ _ _ _ _ _ _ _ _ _)) (owns_of_cover c _ VS4_1 (scover4_C_1 c (grid4.coords t) _ _ _ _ _ _ _ _ _ _ _ _ _ _ _ _ _ _ _ _ _ _))
  · rw [Dat.leavesExact_idle (dat4 V c) 4 t (idleAt4_4 t h1) (noFlush4_4 t h1)]
    by_cases h0 : t.val % 10 = 0
    · rw [outsAt4_A V c t h0 h1, PhiS4_zero V c _ _ (by omega), PhiA4_eq]
      unfold inv4 sout4_A_0 sout4_A_1; dsimp only
      exact frame4 c (fun _ K => (kernelRun4_A c (grid4.coords t) _ _ _ _ _ _ _ _ _ _ _ _ _ _ ((hcond4_0 t).mpr h0) (fun h => h1 ((hcond4_1 t).mp h)) _ _ _ _).2.2.2 _ Set.univ K)
        (fun _ => .rfl) (fun _ => by iintro H; iexists _; iexact H)
        (owns_of_cover c _ VS4_0 (scover4_A_0 c (grid4.coords t) _ _ _ _ _ _ _ _ _ _ _ _ _ _ _ _ _ _ _ _)) (owns_of_cover c _ VS4_1 (scover4_A_1 c (grid4.coords t) _ _ _ _ _ _ _ _ _ _ _ _ _ _ _ _ _ _ _ _))
    · rw [outsAt4_B V c t h0 h1, PhiS4_pos V c _ _ (by omega)]
      unfold inv4 sout4_B_0 sout4_B_1; dsimp only
      exact frame4 c (fun _ K => (kernelRun4_B c (grid4.coords t) _ _ _ _ _ _ _ _ _ _ _ _ _ _ (fun h => h0 ((hcond4_0 t).mp h)) (fun h => h1 ((hcond4_1 t).mp h)) _ _ _ _ _ _).2.2.2 _ Set.univ K)
        (fun _ => .rfl) (fun _ => by iintro H; iexists _; iexact H)
        (owns_of_cover c _ VS4_0 (scover4_B_0 c (grid4.coords t) _ _ _ _ _ _ _ _ _ _ _ _ _ _ _ _ _ _ _ _ _ _)) (owns_of_cover c _ VS4_1 (scover4_B_1 c (grid4.coords t) _ _ _ _ _ _ _ _ _ _ _ _ _ _ _ _ _ _ _ _ _ _))

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := .rfl

theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]; unfold inv4
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout4 (c : Dev nD) : (dat4 V c).Φ (Fin.last cfg4.N) ⊢ (Pipeline.ΦA spec4 c : sProp 𝕄) :=
  Phi_out4 V c _ (by rw [Fin.val_last]; have : cfg4.N = 10 := N_4; omega)

end Cert.Kernel.Hand

end
-- ==== Proof.K.Run.lean ====
import proofs.«403130_j26560077758926_1_alg».proof.Proof.K.R0
import proofs.«403130_j26560077758926_1_alg».proof.Proof.K.R1
import proofs.«403130_j26560077758926_1_alg».proof.Proof.K.R2
import proofs.«403130_j26560077758926_1_alg».proof.Proof.K.R3
import proofs.«403130_j26560077758926_1_alg».proof.Proof.K.R4
import proofs.«403130_j26560077758926_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A region leaves every buffer but its output array `o` as entered: an input array ends at its entry contents. -/
theorem keep {cfg : Cfg sig Λ₀} {c : Dev nD} (d : Dat τ (Elt F) Unit ℕ (UR sig nD τ) ℕ cfg c) (V : Valuation τ sig (Elt F))
    (hinj : Function.Injective (Pipeline.arrRef cfg.spec)) (hA : ∀ w, d.A w = V (Proc.devRef .tc (Pipeline.arrRef cfg.spec w)))
    (o : Ref sig .tc) (ho : ∀ w, Pipeline.arrRef cfg.spec w = o ∨ (cfg.win w).isOut = false) (r : Ref sig .tc) (h : r ≠ o) :
    Pipeline.withArrays cfg.spec c V (fun w => d.arrAt w cfg.N) (Proc.devRef .tc r) = V (Proc.devRef .tc r) := by
  by_cases hr : ∃ w, Pipeline.arrRef cfg.spec w = r
  · obtain ⟨w, rfl⟩ := hr
    exact (Pipeline.withArrays_arr _ hinj c V _ w).trans ((d.arrAt_in w ((ho w).resolve_left h) _).trans (hA w))
  · exact Pipeline.withArrays_of_ne _ c V _ r fun w e => hr ⟨w, e⟩

/-- Contents read at the TensorCore's references. -/
abbrev tc (W : Dev nD → Valuation τ sig (Elt F)) : (c : Dev nD) → (b : Ref sig .tc) → Buf (Elt F) ((c : Thread nD τ).loc b) :=
  fun c b => W c b

variable (m : (ℓ : Loc nD τ sig) → Buf (Elt F) ℓ) (ρ : Dev nD → PrngReg) (c : Dev nD)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 := tc (W1 m ρ)
theorem W1_of (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_keep (r : Ref sig .tc) (h : r ≠ main_v29) :
    W2 m ρ c (Proc.devRef .tc r) = W1 m ρ c (Proc.devRef .tc r) :=
  keep (dat0 (V1 m ρ) c) _ launch0.win.arr_inj (A_eq0 _ c) _ (by decide) r h

abbrev W3 : Dev nD → Valuation τ sig (Elt F) := fun c => StableHlo.after hostOps1 (W2 m ρ c)
abbrev V3 := tc (W3 m ρ)
theorem W3_of (r : Ref sig .tc) (h : r ∉ hostOps1_W) :
    W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (V3 m ρ) c).arrAt w cfg1.N
theorem W4_arr (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_keep (r : Ref sig .tc) (h : r ≠ main_v45) :
    W4 m ρ c (Proc.devRef .tc r) = W3 m ρ c (Proc.devRef .tc r) :=
  keep (dat1 (V3 m ρ) c) _ launch1.win.arr_inj (A_eq1 _ c) _ (by decide) r h
abbrev V4 := tc (W4 m ρ)

def W5 (c : Dev nD) : Valuation τ sig (Elt F) :=
  Pipeline.withArrays spec2 c (W4 m ρ c) fun w => (dat2 (V4 m ρ) c).arrAt w cfg2.N
theorem W5_arr (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_keep (r : Ref sig .tc) (h : r ≠ main_v46) :
    W5 m ρ c (Proc.devRef .tc r) = W4 m ρ c (Proc.devRef .tc r) :=
  keep (dat2 (V4 m ρ) c) _ launch2.win.arr_inj (A_eq2 _ c) _ (by decide) r h

abbrev W6 : Dev nD → Valuation τ sig (Elt F) := fun c => StableHlo.after hostOps3 (W5 m ρ c)
abbrev V6 := tc (W6 m ρ)
theorem W6_of (r : Ref sig .tc) (h : r ∉ hostOps3_W) :
    W6 m ρ c (Proc.devRef .tc r) = W5 m ρ c (Proc.devRef .tc r) :=
  StableHlo.after_of_writes_sub hostOps3 _ hostOps3_writes h

def W7 (c : Dev nD) : Valuation τ sig (Elt F) :=
  Pipeline.withArrays spec3 c (W6 m ρ c) fun w => (dat3 (V6 m ρ) c).arrAt w cfg3.N
theorem W7_arr (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_keep (r : Ref sig .tc) (h : r ≠ main_v62) :
    W7 m ρ c (Proc.devRef .tc r) = W6 m ρ c (Proc.devRef .tc r) :=
  keep (dat3 (V6 m ρ) c) _ launch3.win.arr_inj (A_eq3 _ c) _ (by decide) r h

abbrev W8 : Dev nD → Valuation τ sig (Elt F) := fun c => StableHlo.after hostOps4 (W7 m ρ c)
abbrev V8 := tc (W8 m ρ)
theorem W8_of (r : Ref sig .tc) (h : r ∉ hostOps4_W) :
    W8 m ρ c (Proc.devRef .tc r) = W7 m ρ c (Proc.devRef .tc r) :=
  StableHlo.after_of_writes_sub hostOps4 _ hostOps4_writes h

def W9 (c : Dev nD) : Valuation τ sig (Elt F) :=
  Pipeline.withArrays spec4 c (W8 m ρ c) fun w => (dat4 (V8 m ρ) c).arrAt w cfg4.N
theorem W9_arr (w : Fin cfg4.W) :
    W9 m ρ c (Proc.devRef .tc (Pipeline.arrRef spec4 w)) = (dat4 (V8 m ρ) c).arrAt w cfg4.N :=
  Pipeline.withArrays_arr spec4 launch4.win.arr_inj c _ _ w
theorem W9_keep (r : Ref sig .tc) (h : r ≠ main_v65) :
    W9 m ρ c (Proc.devRef .tc r) = W8 m ρ c (Proc.devRef .tc r) :=
  keep (dat4 (V8 m ρ) c) _ launch4.win.arr_inj (A_eq4 _ c) _ (by decide) r h

/-- A buffer no host operation writes and no region has for its output array ends as launched. -/
theorem W9_of_unwritten (r : Ref sig .tc)
    (h : (r ∉ hostOps0_W ∧ r ∉ hostOps1_W ∧ r ∉ hostOps3_W ∧ r ∉ hostOps4_W)
      ∧ r ≠ main_v29 ∧ r ≠ main_v45 ∧ r ≠ main_v46 ∧ r ≠ main_v62 ∧ r ≠ main_v65) :
    W9 m ρ c (Proc.devRef .tc r) = m ((c : Thread nD τ).loc r) :=
  (W9_keep m ρ c r h.2.2.2.2.2).trans <| (W8_of m ρ c r h.1.2.2.2).trans <| (W7_keep m ρ c r h.2.2.2.2.1).trans <|
    (W6_of m ρ c r h.1.2.2.1).trans <| (W5_keep m ρ c r h.2.2.2.1).trans <| (W4_keep m ρ c r h.2.2.1).trans <|
    (W3_of m ρ c r h.1.2.1).trans <| (W2_keep m ρ c r h.2.1).trans <| W1_of m ρ c r h.1.1

theorem W9_main_v65 : W9 m ρ c (Proc.devRef .tc main_v65) = (dat4 (V8 m ρ) c).arrAt 4 cfg4.N :=
  W9_arr m ρ c 4

def pdats : (p : Fin 5) → (c : Dev nD) → Dat τ (Elt F) Unit ℕ (UR sig nD τ) ℕ (cfgs p) c
  | ⟨0, _⟩ => dat0 (V1 m ρ)
  | ⟨1, _⟩ => dat1 (V3 m ρ)
  | ⟨2, _⟩ => dat2 (V4 m ρ)
  | ⟨3, _⟩ => dat3 (V6 m ρ)
  | ⟨4, _⟩ => dat4 (V8 m ρ)
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- The state between two segments: every unscoped buffer at the contents `W`, `R` beside. -/
abbrev Held (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Region `p` as a segment: entered at the contents `V`, left with each of its arrays at its final contents and every other buffer as entered. -/
def region (pd : (p : Fin 5) → (c : Dev nD) → Dat τ (Elt F) Unit ℕ (UR sig nD τ) ℕ (cfgs p) c)
  (p : Fin 5) (K : Pipeline.LaunchFacts (nD := nD) (τ := τ) cfgs p) (V : Dev nD → Valuation τ sig (Elt F))
  (hA : ∀ c w, (pd p c).A w = V c (Proc.devRef .tc (Pipeline.arrRef (cfgs p).spec w)))
  (hq : ∀ c w, (pd p c).q w = fullShare) (h0 : ∀ c t, (pd p c).owed t = 0) (hr : ∀ c, (pd p c).recorded 0 = Set.univ)
  (hb : ∀ c, BodyObligation (pd p c) (defs₀ (F := F)) 𝒱₀ () Set.univ)
  (hI : ∀ c, (Pipeline.ΦA (cfgs p).spec c : sProp 𝕄) ⊢ (pd p c).Φ 0)
  (hO : ∀ c, (pd p c).Φ (Fin.last (cfgs p).N) ⊢ (Pipeline.ΦA (cfgs p).spec c : sProp 𝕄)) :
    Pipeline.RegionSeg (pcfgs (F := F)) adm pd () defs₀ 𝒱₀ L lv p where
  win := K.win.to₀
  block_pos := K.block_pos
  stage_whole := K.stage_whole
  K := PEmpty
  osem k := k.elim
  ho := Pipeline.OwnSemFacts.none _
  hbody c := (hb c).loose
  hwaits := Pipeline.hwaits_of_owed_zero _ _ _ _ L lv p h0
  pre := Held V
  post := Held fun c => Pipeline.withArrays (cfgs p).spec c (V c) fun w => (pd p c).arrAt w (cfgs p).N
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm pd K.win K.arr_whole c
      ((pd p c).share_full (hq c)) (fun b => V c b) (hA c)
    rw [Pipeline.unscopedBufs_held] at hsplit
    unfold Pipeline.Dat.owesAt Pipeline.owesWithin Pipeline.Dat.bound Pipeline.prefHeld
    rw [h0 c, hr c, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    refine BIBase.Entails.trans ?_ (hI c)
    unfold Pipeline.ΦA
    iintro ⟨Hp, -, Hr⟩
    isplitl [Hr]; · iexact Hr
    iexact Hp
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      K.win K.arr_whole c pd ((pd p c).share_full (hq c)) (fun b => V c b)
      (fun b => Pipeline.withArrays (cfgs p).spec c (V c) (fun w => (pd p c).arrAt w (cfgs p).N) b) ((pd p c).arrAt · (cfgs p).N)
      (fun w => by rw [Pipeline.withArrays_arr _ K.win.arr_inj])
      fun b hb => Pipeline.withArrays_of_ne (cfgs p).spec c (V c) _ b fun w e => hb (Finset.mem_image.mpr ⟨w, Finset.mem_univ _, e⟩)
    rw [Pipeline.unscopedBufs_held] at hjoin
    unfold Pipeline.Dat.owesAt Pipeline.owesWithin
    rw [h0 c]
    iintro ⟨Ha, ⟨%W, -, HO⟩, HY, Hrest⟩
    imodintro
    isplitl [Ha Hrest]
    · iapply hjoin; isplitl [Ha] <;> iassumption
    isplitl [HY]; · iexact HY
    iexists W; iexact HO

set_option backward.isDefEq.respectTransparency.types false in
/-- @main's nine segments in order, each entered at the contents the one before leaves. -/
abbrev segs : List (Pipeline.Seg (pcfgs (F := F)) adm (pdats m ρ) () defs₀ 𝒱₀ L lv) :=
  [ .host (hseg hostOps0 hostOps0_sub hostOps0_fresh (W0 m ρ)),
    .region (region (pdats m ρ) 0 launch0 (W1 m ρ) (fun _ _ => rfl) (fun _ _ => rfl) (fun _ _ => rfl) (fun _ => rfl) (body_obligation0 (V1 m ρ)) (fun _ => .rfl) fun _ => .rfl),
    .host (hseg hostOps1 hostOps1_sub hostOps1_fresh (W2 m ρ)),
    .region (region (pdats m ρ) 1 launch1 (W3 m ρ) (fun _ _ => rfl) (fun _ _ => rfl) (fun _ _ => rfl) (fun _ => rfl) (body_obligation1 (V3 m ρ)) (fun _ => .rfl) fun _ => .rfl),
    .region (region (pdats m ρ) 2 launch2 (W4 m ρ) (fun _ _ => rfl) (fun _ _ => rfl) (fun _ _ => rfl) (fun _ => rfl) (body_obligation2 (V4 m ρ)) (fun _ => .rfl) fun _ => .rfl),
    .host (hseg hostOps3 hostOps3_sub hostOps3_fresh (W5 m ρ)),
    .region (region (pdats m ρ) 3 launch3 (W6 m ρ) (fun _ _ => rfl) (fun _ _ => rfl) (fun _ _ => rfl) (fun _ => rfl) (body_obligation3 (V6 m ρ)) (fun _ => .rfl) fun _ => .rfl),
    .host (hseg hostOps4 hostOps4_sub hostOps4_fresh (W7 m ρ)),
    .region (region (pdats m ρ) 4 launch4 (W8 m ρ) (fun _ _ => rfl) (fun _ _ => rfl) (fun _ _ => rfl) (fun _ => rfl) (body_obligation4 (V8 m ρ)) (hin4 (V8 m ρ)) (hout4 (V8 m ρ))) ]
theorem main_run : main (F := F) c = Pipeline.Seg.run (segs m ρ) := (main_chain c).trans (by chain_rfl)

set_option backward.isDefEq.respectTransparency.types false in
/-- Every weakly fair execution of @main terminates, nothing faulting, with every unscoped buffer at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := Held (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- Every argument array ends as launched: none is written by a host operation, none is a region's output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c => by
    refine ⟨?_, ?_, ?_, ?_, ?_, ?_, ?_, ?_, ?_, ?_⟩ <;>
      exact (h c _ (mem_uc _ (by decide))).trans (W9_of_unwritten m ρ c _ (by decide))) (run_all m ρ)

end Cert.Kernel.Hand

end
-- ==== Proof.KI.R0.lean ====
import proofs.«403130_j26560077758926_1_alg».proof.Proof.Gen.KernelIdeal.Launch
import proofs.«403130_j26560077758926_1_alg».proof.Proof.Gen.KernelIdeal.Skeleton
import proofs.«403130_j26560077758926_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block as a function of the two input blocks: their matrix product, both rounded to bf16 first. -/
def out0_2 (x0 : Vec F S5000x64 .f32) (x1 : Vec F S64x64 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0))⟩]

/-- Every load and the one store cover a whole block, so what is stored is the payload of the loaded blocks and the inputs are untouched. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«403130_j26560077758926_1_alg».proof.Proof.Gen.KernelIdeal.Launch
import proofs.«403130_j26560077758926_1_alg».proof.Proof.Gen.KernelIdeal.Skeleton
import proofs.«403130_j26560077758926_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block as a function of the four input blocks: tanh (x0 + x1 · column + row), the column and the row spread over the block. -/
def out1_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x1) ![0, 0] S5000x1.size inb_S5000x1_S5000x1_0_0)) (View.ld x3 (Rect.unit (s := S1x64) ![0, 0] S1x64.size inb_S1x64_S1x64_0_0))⟩]

set_option maxHeartbeats 1000000 in
/-- Every load and the one store cover a whole block, so what is stored is the payload of the loaded blocks and the inputs are untouched. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_tanh_kernel i arg1 harg1 arg2 harg2 arg3 harg3 arg4 harg4 arg5 harg5) K := by
  simp only [cc1__combine_tanh_kernel_eq_skeleton]; unfold cc1__combine_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«403130_j26560077758926_1_alg».proof.Proof.Gen.KernelIdeal.Launch
import proofs.«403130_j26560077758926_1_alg».proof.Proof.Gen.KernelIdeal.Skeleton
import proofs.«403130_j26560077758926_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block as a function of the two input blocks: their matrix product, both rounded to bf16 first. -/
def out2_2 (x0 : Vec F S5000x64 .f32) (x1 : Vec F S64x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0))⟩]

/-- Every load and the one store cover a whole block, so what is stored is the payload of the loaded blocks and the inputs are untouched. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«403130_j26560077758926_1_alg».proof.Proof.Gen.KernelIdeal.Launch
import proofs.«403130_j26560077758926_1_alg».proof.Proof.Gen.KernelIdeal.Skeleton
import proofs.«403130_j26560077758926_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block as a function of the four input blocks: tanh (x0 + x1 · column + row), the column and the row spread over the block. -/
def out3_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x1) ![0, 0] S5000x1.size inb_S5000x1_S5000x1_0_0)) (View.ld x3 (Rect.unit (s := S1x64) ![0, 0] S1x64.size inb_S1x64_S1x64_0_0))⟩]

set_option maxHeartbeats 1000000 in
/-- Every load and the one store cover a whole block, so what is stored is the payload of the loaded blocks and the inputs are untouched. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_tanh_kernel i arg1 harg1 arg2 harg2 arg3 harg3 arg4 harg4 arg5 harg5) K := by
  simp only [cc3__combine_tanh_kernel_eq_skeleton]; unfold cc3__combine_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«403130_j26560077758926_1_alg».proof.Proof.Gen.KernelIdeal.Launch
import proofs.«403130_j26560077758926_1_alg».proof.Proof.Gen.KernelIdeal.Skeleton
import proofs.«403130_j26560077758926_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4 : ∀ (w : Fin cfg4.W) (t : Fin cfg4.N), w ≠ 4 → cfg4.idle w (grid4.coords t) = false := by decide +kernel
theorem idleAt4_4 : ∀ t : Fin cfg4.N, ¬t.val % 10 = 9 → cfg4.idle 4 (grid4.coords t) = true := by decide +kernel
theorem noFlush4_4 : ∀ t : Fin cfg4.N, ¬t.val % 10 = 9 → (cfg4.win 4).flush t = false := by decide +kernel
theorem liveAt4_4 : ∀ t : Fin cfg4.N, t.val % 10 = 9 → cfg4.idle 4 (grid4.coords t) = false := by decide +kernel

abbrev VO4_4 : View sig .tc .vmem S128x8 .f32 := (Memref.whole cc4_stg4_0 : Memref sig .tc .vmem S128x8 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x8 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x8 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x8 .f32 := win4_4.stage (cfg4.slots t 4)
abbrev hs4_4 (t : Fin cfg4.N) : (ms4_4 t).IsWhole := hstage4_4 ((cfg4.slots t 4).cast nbuf4_4)
abbrev scM4_0 : Memref sig .tc .vmem S64x128 .f32 := Memref.whole cc4_scratch0
abbrev scM4_1 : Memref sig .tc .vmem S1x128 .f32 := Memref.whole cc4_scratch1
abbrev VS4_0 : View sig .tc .vmem S64x128 .f32 := scM4_0.view
abbrev VS4_1 : View sig .tc .vmem S1x128 .f32 := scM4_1.view

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop((iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

section
variable (c : Dev nD) (i : grid4.Coords) (arg1 : Memref sig .tc .vmem S5000x64 .f32) (harg1 : arg1.IsWhole) (arg2 : Memref sig .tc .vmem S5000x1 .i32) (harg2 : arg2.IsWhole) (arg3 : Memref sig .tc .vmem S64x8 .f32) (harg3 : arg3.IsWhole) (arg4 : Memref sig .tc .vmem S1x8 .f32) (harg4 : arg4.IsWhole) (arg5 : Memref sig .tc .vmem S128x8 .f32) (harg5 : arg5.IsWhole) (arg6 : Memref sig .tc .vmem S64x128 .f32) (harg6 : arg6.IsWhole) (arg7 : Memref sig .tc .vmem S1x128 .f32) (harg7 : arg7.IsWhole)

section
variable (hc0 : cond4_0 i) (hc1 : ¬cond4_1 i) (x0 : Vec F S5000x64 .f32) (x1 : Vec F S5000x1 .i32) (x2 : Vec F S64x8 .f32) (x3 : Vec F S1x8 .f32)

set_option maxHeartbeats 2000000 in
def kernelRun4_A :
    Σ' (L4 : List (View.Piece (Elt F) S128x8 .f32)), Σ' (LS0 : List (View.Piece (Elt F) S64x128 .f32)), { LS1 : List (View.Piece (Elt F) S1x128 .f32) //
      ∀ (xi4 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_linear_kernel i arg1 harg1 arg2 harg2 arg3 harg3 arg4 harg4 arg5 harg5 arg6 harg6 arg7 harg7) K } := by
  refine ⟨[], ?_, ?_, fun xi4 E K => ?run⟩
  case run =>
    simp only [cc4__pool_linear_kernel_eq_skeleton]; unfold cc4__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

def out4_A_4 : Vec F S128x8 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2 x3).1)

theorem scover4_A_0 (y : S64x128.Idx) : ∃ pc ∈ (kernelRun4_A c i arg1 harg1 arg2 harg2 arg3 harg3 arg4 harg4 arg5 harg5 arg6 harg6 arg7 harg7 hc0 hc1 x0 x1 x2 x3).2.1, y ∈ pc.1.set :=
  View.cover_of_tiledL _ S64x128.size (by sl_kernel_rfl) y

def sout4_A_0 : Vec F S64x128 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2 x3).2.1)

theorem scover4_A_1 (y : S1x128.Idx) : ∃ pc ∈ (kernelRun4_A c i arg1 harg1 arg2 harg2 arg3 harg3 arg4 harg4 arg5 harg5 arg6 harg6 arg7 harg7 hc0 hc1 x0 x1 x2 x3).2.2.1, y ∈ pc.1.set :=
  View.cover_of_tiledL _ S1x128.size (by sl_kernel_rfl) y

def sout4_A_1 : Vec F S1x128 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1 x2 x3).2.2.1)

def outs4_A :=
  (out4_A_4 c i arg1 harg1 arg2 harg2 arg3 harg3 arg4 harg4 arg5 harg5 arg6 harg6 arg7 harg7 hc0 hc1 x0 x1 x2 x3, sout4_A_0 c i arg1 harg1 arg2 harg2 arg3 harg3 arg4 harg4 arg5 harg5 arg6 harg6 arg7 harg7 hc0 hc1 x0 x1 x2 x3, sout4_A_1 c i arg1 harg1 arg2 harg2 arg3 harg3 arg4 harg4 arg5 harg5 arg6 harg6 arg7 harg7 hc0 hc1 x0 x1 x2 x3)

end

section
variable (hc0 : ¬cond4_0 i) (hc1 : ¬cond4_1 i) (x0 : Vec F S5000x64 .f32) (x1 : Vec F S5000x1 .i32) (x2 : Vec F S64x8 .f32) (x3 : Vec F S1x8 .f32) (xs0 : Vec F S64x128 .f32) (xs1 : Vec F S1x128 .f32)

set_option maxHeartbeats 2000000 in
def kernelRun4_B :
    Σ' (L4 : List (View.Piece (Elt F) S128x8 .f32)), Σ' (LS0 : List (View.Piece (Elt F) S64x128 .f32)), { LS1 : List (View.Piece (Elt F) S1x128 .f32) //
      ∀ (xi4 : Vec F S128x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_linear_kernel i arg1 harg1 arg2 harg2 arg3 harg3 arg4 harg4 arg5 harg5 arg6 harg6 arg7 harg7) K } := by
  refine ⟨[], ?_, ?_, fun xi4 E K => ?run⟩
  case run =>
    simp only [cc4__pool_linear_kernel_eq_skeleton]; unfold cc4__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

def out4_B_4 : Vec F S128x8 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 x3 xs0 xs1).1)

theorem scover4_B_0 (y : S64x128.Idx) : ∃ pc ∈ (kernelRun4_B c i arg1 harg1 arg2 harg2 arg3 harg3 arg4 harg4 arg5 harg5 arg6 harg6 arg7 harg7 hc0 hc1 x0 x1 x2 x3 xs0 xs1).2.1, y ∈ pc.1.set :=
  View.cover_of_tiledL _ S64x128.size (by sl_kernel_rfl) y

def sout4_B_0 : Vec F S64x128 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 x3 xs0 xs1).2.1)

theorem scover4_B_1 (y : S1x128.Idx) : ∃ pc ∈ (kernelRun4_B c i arg1 harg1 arg2 harg2 arg3 harg3 arg4 harg4 arg5 harg5 arg6 harg6 arg7 harg7 hc0 hc1 x0 x1 x2 x3 xs0 xs1).2.2.1, y ∈ pc.1.set :=
  View.cover_of_tiledL _ S1x128.size (by sl_kernel_rfl) y

def sout4_B_1 : Vec F S1x128 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 x2 x3 xs0 xs1).2.2.1)

def outs4_B :=
  (out4_B_4 c i arg1 harg1 arg2 harg2 arg3 harg3 arg4 harg4 arg5 harg5 arg6 harg6 arg7 harg7 hc0 hc1 x0 x1 x2 x3 xs0 xs1, sout4_B_0 c i arg1 harg1 arg2 harg2 arg3 harg3 arg4 harg4 arg5 harg5 arg6 harg6 arg7 harg7 hc0 hc1 x0 x1 x2 x3 xs0 xs1, sout4_B_1 c i arg1 harg1 arg2 harg2 arg3 harg3 arg4 harg4 arg5 harg5 arg6 harg6 arg7 harg7 hc0 hc1 x0 x1 x2 x3 xs0 xs1)

end

section
variable (hc0 : ¬cond4_0 i) (hc1 : cond4_1 i) (x0 : Vec F S5000x64 .f32) (x1 : Vec F S5000x1 .i32) (x2 : Vec F S64x8 .f32) (x3 : Vec F S1x8 .f32) (xs0 : Vec F S64x128 .f32) (xs1 : Vec F S1x128 .f32)

set_option maxHeartbeats 2000000 in
def kernelRun4_C :
    Σ' (L4 : List (View.Piece (Elt F) S128x8 .f32)), Σ' (LS0 : List (View.Piece (Elt F) S64x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_linear_kernel i arg1 harg1 arg2 harg2 arg3 harg3 arg4 harg4 arg5 harg5 arg6 harg6 arg7 harg7) K } := by
  refine ⟨?_, ?_, ?_, fun E K => ?run⟩
  case run =>
    simp only [cc4__pool_linear_kernel_eq_skeleton]; unfold cc4__pool_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

def out4_C_4 : Vec F S128x8 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 x3 xs0 xs1).1)

theorem cover4_C_4 (y : S128x8.Idx) : ∃ pc ∈ (kernelRun4_C c i arg1 harg1 arg2 harg2 arg3 harg3 arg4 harg4 arg5 harg5 arg6 harg6 arg7 harg7 hc0 hc1 x0 x1 x2 x3 xs0 xs1).1, y ∈ pc.1.set :=
  View.cover_of_tiledL _ S128x8.size (by sl_kernel_rfl) y

theorem scover4_C_0 (y : S64x128.Idx) : ∃ pc ∈ (kernelRun4_C c i arg1 harg1 arg2 harg2 arg3 harg3 arg4 harg4 arg5 harg5 arg6 harg6 arg7 harg7 hc0 hc1 x0 x1 x2 x3 xs0 xs1).2.1, y ∈ pc.1.set :=
  View.cover_of_tiledL _ S64x128.size (by sl_kernel_rfl) y

def sout4_C_0 : Vec F S64x128 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 x3 xs0 xs1).2.1)

theorem scover4_C_1 (y : S1x128.Idx) : ∃ pc ∈ (kernelRun4_C c i arg1 harg1 arg2 harg2 arg3 harg3 arg4 harg4 arg5 harg5 arg6 harg6 arg7 harg7 hc0 hc1 x0 x1 x2 x3 xs0 xs1).2.2.1, y ∈ pc.1.set :=
  View.cover_of_tiledL _ S1x128.size (by sl_kernel_rfl) y

def sout4_C_1 : Vec F S1x128 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 x2 x3 xs0 xs1).2.2.1)

def outs4_C :=
  (out4_C_4 c i arg1 harg1 arg2 harg2 arg3 harg3 arg4 harg4 arg5 harg5 arg6 harg6 arg7 harg7 hc0 hc1 x0 x1 x2 x3 xs0 xs1, sout4_C_0 c i arg1 harg1 arg2 harg2 arg3 harg3 arg4 harg4 arg5 harg5 arg6 harg6 arg7 harg7 hc0 hc1 x0 x1 x2 x3 xs0 xs1, sout4_C_1 c i arg1 harg1 arg2 harg2 arg3 harg3 arg4 harg4 arg5 harg5 arg6 harg6 arg7 harg7 hc0 hc1 x0 x1 x2 x3 xs0 xs1)

end

end

theorem ne0_4 {n : ℕ} (hn : n + 1 < cfg4.N) : ¬(n + 1) % 10 = 0 := by have : cfg4.N = 10 := N_4; omega

section
variable (c : Dev nD) (t : Fin cfg4.N)

def caseA4 (h0 : t.val % 10 = 0) (h1 : ¬t.val % 10 = 9) :=
  outs4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

def caseB4 (h0 : ¬t.val % 10 = 0) (h1 : ¬t.val % 10 = 9) (p : Vec F S64x128 .f32 × Vec F S1x128 .f32) :=
  outs4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) p.1 p.2

def caseC4 (h0 : ¬t.val % 10 = 0) (h1 : t.val % 10 = 9) (p : Vec F S64x128 .f32 × Vec F S1x128 .f32) :=
  outs4_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) p.1 p.2

end

def outsAt4 (c : Dev nD) : (n : ℕ) → n < cfg4.N → Vec F S128x8 .f32 × Vec F S64x128 .f32 × Vec F S1x128 .f32
  | 0, hn => caseA4 V c ⟨0, hn⟩ (Nat.zero_mod _) (by show ¬0 % 10 = 9; decide)
  | n + 1, hn =>
    if h1 : (n + 1) % 10 = 9 then caseC4 V c ⟨n + 1, hn⟩ (ne0_4 hn) h1 (outsAt4 c n (Nat.lt_of_succ_lt hn)).2
    else caseB4 V c ⟨n + 1, hn⟩ (ne0_4 hn) h1 (outsAt4 c n (Nat.lt_of_succ_lt hn)).2

section
variable (c : Dev nD) (t : Fin cfg4.N)

theorem outsAt4_A (h0 : t.val % 10 = 0) (h1 : ¬t.val % 10 = 9) : outsAt4 V c t.val t.isLt = delta% delta% caseA4 V c t h0 h1 := by
  obtain ⟨n, hn⟩ := t
  cases n with
  | zero => rfl
  | succ n => exact absurd h0 (ne0_4 hn)

theorem outsAt4_B (h0 : ¬t.val % 10 = 0) (h1 : ¬t.val % 10 = 9) :
    outsAt4 V c t.val t.isLt = delta% delta% caseB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h1).trans rfl

theorem outsAt4_C (h0 : ¬t.val % 10 = 0) (h1 : t.val % 10 = 9) :
    outsAt4 V c t.val t.isLt = delta% delta% caseC4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_pos h1).trans rfl

end

-- After a point: the two carried buffers at the contents p, the rest as the launch left it.
def inv4 (c : Dev nD) (p : Vec F S64x128 .f32 × Vec F S1x128 .f32) : sProp 𝕄 :=
  iprop((iprop(owns (c : Thread nD τ) scM4_0 fullShare p.1 ∗ owns (c : Thread nD τ) scM4_1 fullShare p.2) ∗ rest4 (F := F) c) ∗ (∃ r, prngReg c r))

def PhiS4 (c : Dev nD) : (n : ℕ) → n ≤ cfg4.N → sProp 𝕄
  | 0, _ => Pipeline.ΦA spec4 c
  | n + 1, hn => inv4 c (outsAt4 V c n hn).2

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) : PhiS4 V c (n + 1) hn = inv4 c (outsAt4 V c n hn).2 := rfl

theorem PhiS4_pos (c : Dev nD) (n : ℕ) (h : n ≤ cfg4.N) (hz : n ≠ 0) : PhiS4 V c n h = inv4 c (outsAt4 V c (n - 1) (by omega)).2 := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

-- Stores that cover a buffer fix what it reads, whatever it held before.
theorem owns_of_cover (c : Dev nD) {S : Shape} {e : EltTy} (m : Memref sig .tc .vmem S e) (v : View sig .tc .vmem S e) {L : List (View.Piece (Elt F) S e)}
    (h : ∀ y, ∃ pc ∈ L, y ∈ pc.1.set) :
    iprop(∃ f, m.view.loc (c : Thread nD τ) ↦[m.view.set]{fullShare} m.view.writes (Elt F) f L) ⊢ (owns (c : Thread nD τ) m fullShare (v.read (Elt F) (v.writes (Elt F) v.junk L)) : sProp 𝕄) := by
  iintro ⟨%f, H⟩; unfold owns; iexists m.view.writes (Elt F) f L; isplitr
  · ipureintro; exact View.read_writes_of_cover _ _ _ _ _ h
  · iexact H

-- A run that hands the four inputs back as found, framed by what it does not touch.
theorem frame4 (c : Dev nD) {α β0 β1 β2 β3 : Type} {e : Prog _ PUnit} {I0 I1 I2 I3 PS0 PS1 QS0 QS1 QS0' QS1' R G O Q4 : sProp 𝕄} {P4 P4' Q4' : α → sProp 𝕄}
    (run : ∀ x K, iprop(I0 ∗ I1 ∗ I2 ∗ I3 ∗ P4' x ∗ PS0 ∗ PS1 ∗ (iprop(I0 ∗ I1 ∗ I2 ∗ I3 ∗ Q4' x ∗ QS0' ∗ QS1') -∗ K ⟨⟩))
      ⊢ wp frame (wpE (defs₀ (F := F)) Variants.none c none) Set.univ e K)
    (h4 : ∀ x, P4 x ⊢ P4' x) (k4 : ∀ x, Q4' x ⊢ Q4) (k0 : QS0' ⊢ QS0) (k1 : QS1' ⊢ QS1) :
    iprop((iprop(iprop(PS0 ∗ PS1) ∗ R) ∗ G) ∗ O ∗ (∃ _d : β0, I0) ∗ (∃ _d : β1, I1) ∗ (∃ _d : β2, I2) ∗ (∃ _d : β3, I3) ∗ (∃ x, P4 x))
      ⊢ wp frame (wpE (defs₀ (F := F)) Variants.none c none) Set.univ e
          (fun _ => iprop((iprop(iprop(QS0 ∗ QS1) ∗ R) ∗ G) ∗ O ∗ I0 ∗ I1 ∗ I2 ∗ I3 ∗ Q4)) := by
  iintro ⟨⟨⟨⟨HS0, HS1⟩, Hrest⟩, Hg⟩, Ho, ⟨%d0, H0⟩, ⟨%d1, H1⟩, ⟨%d2, H2⟩, ⟨%d3, H3⟩, ⟨%x, H4⟩⟩
  iapply (run x _)
  isplitl [H0]; · iexact H0
  isplitl [H1]; · iexact H1
  isplitl [H2]; · iexact H2
  isplitl [H3]; · iexact H3
  isplitl [H4]; · iapply (h4 x); iexact H4
  isplitl [HS0]; · iexact HS0
  isplitl [HS1]; · iexact HS1
  iintro ⟨H0, H1, H2, H3, H4, HS0, HS1⟩
  isplitl [HS0 HS1 Hrest Hg]
  · isplitl [HS0 HS1 Hrest]
    · isplitl [HS0 HS1]
      · isplitl [HS0]
        · iapply k0; iexact HS0
        · iapply k1; iexact HS1
      iexact Hrest
    iexact Hg
  isplitl [Ho]; · iexact Ho
  isplitl [H0]; · iexact H0
  isplitl [H1]; · iexact H1
  isplitl [H2]; · iexact H2
  isplitl [H3]; · iexact H3
  iapply (k4 x); iexact H4

theorem leaves4 (c : Dev nD) (t : Fin cfg4.N) (w : Fin cfg4.W) (hl : cfg4.idle w (grid4.coords t) = false) :
    (dat4 V c).leavesExact w t = owns (c : Thread nD τ) ((cfg4.win w).stage (cfg4.slots t w)) fullShare ((dat4 V c).after w t) := by
  unfold Dat.leavesExact; rw [hl]

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  simp only [before4_0, before4_1, before4_2, before4_3]
  rw [show (dat4 V c).owesAt () t.succ = (dat4 V c).owesAt () t.castSucc from rfl,
    show (dat4 V c).Φ t.succ = PhiS4 V c (t.val + 1) t.isLt from rfl, PhiS4_succ, PhiS4_castSucc]
  have hN : t.val < 10 := lt_of_lt_of_eq t.isLt (show cfg4.N = 10 from N_4)
  rw [leaves4 V c t 0 (liveAt4 0 t (by decide)), after4_0, leaves4 V c t 1 (liveAt4 1 t (by decide)), after4_1,
    leaves4 V c t 2 (liveAt4 2 t (by decide)), after4_2, leaves4 V c t 3 (liveAt4 3 t (by decide)), after4_3]
  by_cases h1 : t.val % 10 = 9
  · have h0 : ¬t.val % 10 = 0 := by omega
    rw [leaves4 V c t 4 (liveAt4_4 t h1), after4_4, outsAt4_C V c t h0 h1, PhiS4_pos V c _ _ (by omega)]
    unfold inv4 out4_C_4 sout4_C_0 sout4_C_1; dsimp only
    exact frame4 c (fun _ K => (kernelRun4_C c (grid4.coords t) _ _ _ _ _ _ _ _ _ _ _ _ _ _ (fun h => h0 ((hcond4_0 t).mp h)) ((hcond4_1 t).mpr h1) _ _ _ _ _ _).2.2.2 Set.univ K)
      (fun _ => by iintro H; iexists _; iexact H) (fun _ => owns_of_cover c _ VO4_4 (cover4_C_4 c (grid4.coords t) _ _ _ _ _ _ _ _ _ _ _ _ _ _ _ _ _ _ _ _ _ _))
      (owns_of_cover c _ VS4_0 (scover4_C_0 c (grid4.coords t) _ _ _ _ _ _ _ _ _ _ _ _ _ _ _ _ _ _ _ _ _ _)) (owns_of_cover c _ VS4_1 (scover4_C_1 c (grid4.coords t) _ _ _ _ _ _ _ _ _ _ _ _ _ _ _ _ _ _ _ _ _ _))
  · rw [Dat.leavesExact_idle (dat4 V c) 4 t (idleAt4_4 t h1) (noFlush4_4 t h1)]
    by_cases h0 : t.val % 10 = 0
    · rw [outsAt4_A V c t h0 h1, PhiS4_zero V c _ _ (by omega), PhiA4_eq]
      unfold inv4 sout4_A_0 sout4_A_1; dsimp only
      exact frame4 c (fun _ K => (kernelRun4_A c (grid4.coords t) _ _ _ _ _ _ _ _ _ _ _ _ _ _ ((hcond4_0 t).mpr h0) (fun h => h1 ((hcond4_1 t).mp h)) _ _ _ _).2.2.2 _ Set.univ K)
        (fun _ => .rfl) (fun _ => by iintro H; iexists _; iexact H)
        (owns_of_cover c _ VS4_0 (scover4_A_0 c (grid4.coords t) _ _ _ _ _ _ _ _ _ _ _ _ _ _ _ _ _ _ _ _)) (owns_of_cover c _ VS4_1 (scover4_A_1 c (grid4.coords t) _ _ _ _ _ _ _ _ _ _ _ _ _ _ _ _ _ _ _ _))
    · rw [outsAt4_B V c t h0 h1, PhiS4_pos V c _ _ (by omega)]
      unfold inv4 sout4_B_0 sout4_B_1; dsimp only
      exact frame4 c (fun _ K => (kernelRun4_B c (grid4.coords t) _ _ _ _ _ _ _ _ _ _ _ _ _ _ (fun h => h0 ((hcond4_0 t).mp h)) (fun h => h1 ((hcond4_1 t).mp h)) _ _ _ _ _ _).2.2.2 _ Set.univ K)
        (fun _ => .rfl) (fun _ => by iintro H; iexists _; iexact H)
        (owns_of_cover c _ VS4_0 (scover4_B_0 c (grid4.coords t) _ _ _ _ _ _ _ _ _ _ _ _ _ _ _ _ _ _ _ _ _ _)) (owns_of_cover c _ VS4_1 (scover4_B_1 c (grid4.coords t) _ _ _ _ _ _ _ _ _ _ _ _ _ _ _ _ _ _ _ _ _ _))

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := .rfl

theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]; unfold inv4
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout4 (c : Dev nD) : (dat4 V c).Φ (Fin.last cfg4.N) ⊢ (Pipeline.ΦA spec4 c : sProp 𝕄) :=
  Phi_out4 V c _ (by rw [Fin.val_last]; have : cfg4.N = 10 := N_4; omega)

end Cert.KernelIdeal.Hand

end
-- ==== Proof.KI.Run.lean ====
import proofs.«403130_j26560077758926_1_alg».proof.Proof.KI.R0
import proofs.«403130_j26560077758926_1_alg».proof.Proof.KI.R1
import proofs.«403130_j26560077758926_1_alg».proof.Proof.KI.R2
import proofs.«403130_j26560077758926_1_alg».proof.Proof.KI.R3
import proofs.«403130_j26560077758926_1_alg».proof.Proof.KI.R4
import proofs.«403130_j26560077758926_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A region leaves every buffer but its output array `o` as entered: an input array ends at its entry contents. -/
theorem keep {cfg : Cfg sig Λ₀} {c : Dev nD} (d : Dat τ (Elt F) Unit ℕ (UR sig nD τ) ℕ cfg c) (V : Valuation τ sig (Elt F))
    (hinj : Function.Injective (Pipeline.arrRef cfg.spec)) (hA : ∀ w, d.A w = V (Proc.devRef .tc (Pipeline.arrRef cfg.spec w)))
    (o : Ref sig .tc) (ho : ∀ w, Pipeline.arrRef cfg.spec w = o ∨ (cfg.win w).isOut = false) (r : Ref sig .tc) (h : r ≠ o) :
    Pipeline.withArrays cfg.spec c V (fun w => d.arrAt w cfg.N) (Proc.devRef .tc r) = V (Proc.devRef .tc r) := by
  by_cases hr : ∃ w, Pipeline.arrRef cfg.spec w = r
  · obtain ⟨w, rfl⟩ := hr
    exact (Pipeline.withArrays_arr _ hinj c V _ w).trans ((d.arrAt_in w ((ho w).resolve_left h) _).trans (hA w))
  · exact Pipeline.withArrays_of_ne _ c V _ r fun w e => hr ⟨w, e⟩

/-- Contents read at the TensorCore's references. -/
abbrev tc (W : Dev nD → Valuation τ sig (Elt F)) : (c : Dev nD) → (b : Ref sig .tc) → Buf (Elt F) ((c : Thread nD τ).loc b) :=
  fun c b => W c b

variable (m : (ℓ : Loc nD τ sig) → Buf (Elt F) ℓ) (ρ : Dev nD → PrngReg) (c : Dev nD)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 := tc (W1 m ρ)
theorem W1_of (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_keep (r : Ref sig .tc) (h : r ≠ main_v29) :
    W2 m ρ c (Proc.devRef .tc r) = W1 m ρ c (Proc.devRef .tc r) :=
  keep (dat0 (V1 m ρ) c) _ launch0.win.arr_inj (A_eq0 _ c) _ (by decide) r h

abbrev W3 : Dev nD → Valuation τ sig (Elt F) := fun c => StableHlo.after hostOps1 (W2 m ρ c)
abbrev V3 := tc (W3 m ρ)
theorem W3_of (r : Ref sig .tc) (h : r ∉ hostOps1_W) :
    W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (V3 m ρ) c).arrAt w cfg1.N
theorem W4_arr (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_keep (r : Ref sig .tc) (h : r ≠ main_v45) :
    W4 m ρ c (Proc.devRef .tc r) = W3 m ρ c (Proc.devRef .tc r) :=
  keep (dat1 (V3 m ρ) c) _ launch1.win.arr_inj (A_eq1 _ c) _ (by decide) r h
abbrev V4 := tc (W4 m ρ)

def W5 (c : Dev nD) : Valuation τ sig (Elt F) :=
  Pipeline.withArrays spec2 c (W4 m ρ c) fun w => (dat2 (V4 m ρ) c).arrAt w cfg2.N
theorem W5_arr (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_keep (r : Ref sig .tc) (h : r ≠ main_v46) :
    W5 m ρ c (Proc.devRef .tc r) = W4 m ρ c (Proc.devRef .tc r) :=
  keep (dat2 (V4 m ρ) c) _ launch2.win.arr_inj (A_eq2 _ c) _ (by decide) r h

abbrev W6 : Dev nD → Valuation τ sig (Elt F) := fun c => StableHlo.after hostOps3 (W5 m ρ c)
abbrev V6 := tc (W6 m ρ)
theorem W6_of (r : Ref sig .tc) (h : r ∉ hostOps3_W) :
    W6 m ρ c (Proc.devRef .tc r) = W5 m ρ c (Proc.devRef .tc r) :=
  StableHlo.after_of_writes_sub hostOps3 _ hostOps3_writes h

def W7 (c : Dev nD) : Valuation τ sig (Elt F) :=
  Pipeline.withArrays spec3 c (W6 m ρ c) fun w => (dat3 (V6 m ρ) c).arrAt w cfg3.N
theorem W7_arr (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_keep (r : Ref sig .tc) (h : r ≠ main_v62) :
    W7 m ρ c (Proc.devRef .tc r) = W6 m ρ c (Proc.devRef .tc r) :=
  keep (dat3 (V6 m ρ) c) _ launch3.win.arr_inj (A_eq3 _ c) _ (by decide) r h

abbrev W8 : Dev nD → Valuation τ sig (Elt F) := fun c => StableHlo.after hostOps4 (W7 m ρ c)
abbrev V8 := tc (W8 m ρ)
theorem W8_of (r : Ref sig .tc) (h : r ∉ hostOps4_W) :
    W8 m ρ c (Proc.devRef .tc r) = W7 m ρ c (Proc.devRef .tc r) :=
  StableHlo.after_of_writes_sub hostOps4 _ hostOps4_writes h

def W9 (c : Dev nD) : Valuation τ sig (Elt F) :=
  Pipeline.withArrays spec4 c (W8 m ρ c) fun w => (dat4 (V8 m ρ) c).arrAt w cfg4.N
theorem W9_arr (w : Fin cfg4.W) :
    W9 m ρ c (Proc.devRef .tc (Pipeline.arrRef spec4 w)) = (dat4 (V8 m ρ) c).arrAt w cfg4.N :=
  Pipeline.withArrays_arr spec4 launch4.win.arr_inj c _ _ w
theorem W9_keep (r : Ref sig .tc) (h : r ≠ main_v65) :
    W9 m ρ c (Proc.devRef .tc r) = W8 m ρ c (Proc.devRef .tc r) :=
  keep (dat4 (V8 m ρ) c) _ launch4.win.arr_inj (A_eq4 _ c) _ (by decide) r h

/-- A buffer no host operation writes and no region has for its output array ends as launched. -/
theorem W9_of_unwritten (r : Ref sig .tc)
    (h : (r ∉ hostOps0_W ∧ r ∉ hostOps1_W ∧ r ∉ hostOps3_W ∧ r ∉ hostOps4_W)
      ∧ r ≠ main_v29 ∧ r ≠ main_v45 ∧ r ≠ main_v46 ∧ r ≠ main_v62 ∧ r ≠ main_v65) :
    W9 m ρ c (Proc.devRef .tc r) = m ((c : Thread nD τ).loc r) :=
  (W9_keep m ρ c r h.2.2.2.2.2).trans <| (W8_of m ρ c r h.1.2.2.2).trans <| (W7_keep m ρ c r h.2.2.2.2.1).trans <|
    (W6_of m ρ c r h.1.2.2.1).trans <| (W5_keep m ρ c r h.2.2.2.1).trans <| (W4_keep m ρ c r h.2.2.1).trans <|
    (W3_of m ρ c r h.1.2.1).trans <| (W2_keep m ρ c r h.2.1).trans <| W1_of m ρ c r h.1.1

theorem W9_main_v65 : W9 m ρ c (Proc.devRef .tc main_v65) = (dat4 (V8 m ρ) c).arrAt 4 cfg4.N :=
  W9_arr m ρ c 4

def pdats : (p : Fin 5) → (c : Dev nD) → Dat τ (Elt F) Unit ℕ (UR sig nD τ) ℕ (cfgs p) c
  | ⟨0, _⟩ => dat0 (V1 m ρ)
  | ⟨1, _⟩ => dat1 (V3 m ρ)
  | ⟨2, _⟩ => dat2 (V4 m ρ)
  | ⟨3, _⟩ => dat3 (V6 m ρ)
  | ⟨4, _⟩ => dat4 (V8 m ρ)
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- The state between two segments: every unscoped buffer at the contents `W`, `R` beside. -/
abbrev Held (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Region `p` as a segment: entered at the contents `V`, left with each of its arrays at its final contents and every other buffer as entered. -/
def region (pd : (p : Fin 5) → (c : Dev nD) → Dat τ (Elt F) Unit ℕ (UR sig nD τ) ℕ (cfgs p) c)
  (p : Fin 5) (K : Pipeline.LaunchFacts (nD := nD) (τ := τ) cfgs p) (V : Dev nD → Valuation τ sig (Elt F))
  (hA : ∀ c w, (pd p c).A w = V c (Proc.devRef .tc (Pipeline.arrRef (cfgs p).spec w)))
  (hq : ∀ c w, (pd p c).q w = fullShare) (h0 : ∀ c t, (pd p c).owed t = 0) (hr : ∀ c, (pd p c).recorded 0 = Set.univ)
  (hb : ∀ c, BodyObligation (pd p c) (defs₀ (F := F)) 𝒱₀ () Set.univ)
  (hI : ∀ c, (Pipeline.ΦA (cfgs p).spec c : sProp 𝕄) ⊢ (pd p c).Φ 0)
  (hO : ∀ c, (pd p c).Φ (Fin.last (cfgs p).N) ⊢ (Pipeline.ΦA (cfgs p).spec c : sProp 𝕄)) :
    Pipeline.RegionSeg (pcfgs (F := F)) adm pd () defs₀ 𝒱₀ L lv p where
  win := K.win.to₀
  block_pos := K.block_pos
  stage_whole := K.stage_whole
  K := PEmpty
  osem k := k.elim
  ho := Pipeline.OwnSemFacts.none _
  hbody c := (hb c).loose
  hwaits := Pipeline.hwaits_of_owed_zero _ _ _ _ L lv p h0
  pre := Held V
  post := Held fun c => Pipeline.withArrays (cfgs p).spec c (V c) fun w => (pd p c).arrAt w (cfgs p).N
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm pd K.win K.arr_whole c
      ((pd p c).share_full (hq c)) (fun b => V c b) (hA c)
    rw [Pipeline.unscopedBufs_held] at hsplit
    unfold Pipeline.Dat.owesAt Pipeline.owesWithin Pipeline.Dat.bound Pipeline.prefHeld
    rw [h0 c, hr c, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    refine BIBase.Entails.trans ?_ (hI c)
    unfold Pipeline.ΦA
    iintro ⟨Hp, -, Hr⟩
    isplitl [Hr]; · iexact Hr
    iexact Hp
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      K.win K.arr_whole c pd ((pd p c).share_full (hq c)) (fun b => V c b)
      (fun b => Pipeline.withArrays (cfgs p).spec c (V c) (fun w => (pd p c).arrAt w (cfgs p).N) b) ((pd p c).arrAt · (cfgs p).N)
      (fun w => by rw [Pipeline.withArrays_arr _ K.win.arr_inj])
      fun b hb => Pipeline.withArrays_of_ne (cfgs p).spec c (V c) _ b fun w e => hb (Finset.mem_image.mpr ⟨w, Finset.mem_univ _, e⟩)
    rw [Pipeline.unscopedBufs_held] at hjoin
    unfold Pipeline.Dat.owesAt Pipeline.owesWithin
    rw [h0 c]
    iintro ⟨Ha, ⟨%W, -, HO⟩, HY, Hrest⟩
    imodintro
    isplitl [Ha Hrest]
    · iapply hjoin; isplitl [Ha] <;> iassumption
    isplitl [HY]; · iexact HY
    iexists W; iexact HO

set_option backward.isDefEq.respectTransparency.types false in
/-- @main's nine segments in order, each entered at the contents the one before leaves. -/
abbrev segs : List (Pipeline.Seg (pcfgs (F := F)) adm (pdats m ρ) () defs₀ 𝒱₀ L lv) :=
  [ .host (hseg hostOps0 hostOps0_sub hostOps0_fresh (W0 m ρ)),
    .region (region (pdats m ρ) 0 launch0 (W1 m ρ) (fun _ _ => rfl) (fun _ _ => rfl) (fun _ _ => rfl) (fun _ => rfl) (body_obligation0 (V1 m ρ)) (fun _ => .rfl) fun _ => .rfl),
    .host (hseg hostOps1 hostOps1_sub hostOps1_fresh (W2 m ρ)),
    .region (region (pdats m ρ) 1 launch1 (W3 m ρ) (fun _ _ => rfl) (fun _ _ => rfl) (fun _ _ => rfl) (fun _ => rfl) (body_obligation1 (V3 m ρ)) (fun _ => .rfl) fun _ => .rfl),
    .region (region (pdats m ρ) 2 launch2 (W4 m ρ) (fun _ _ => rfl) (fun _ _ => rfl) (fun _ _ => rfl) (fun _ => rfl) (body_obligation2 (V4 m ρ)) (fun _ => .rfl) fun _ => .rfl),
    .host (hseg hostOps3 hostOps3_sub hostOps3_fresh (W5 m ρ)),
    .region (region (pdats m ρ) 3 launch3 (W6 m ρ) (fun _ _ => rfl) (fun _ _ => rfl) (fun _ _ => rfl) (fun _ => rfl) (body_obligation3 (V6 m ρ)) (fun _ => .rfl) fun _ => .rfl),
    .host (hseg hostOps4 hostOps4_sub hostOps4_fresh (W7 m ρ)),
    .region (region (pdats m ρ) 4 launch4 (W8 m ρ) (fun _ _ => rfl) (fun _ _ => rfl) (fun _ _ => rfl) (fun _ => rfl) (body_obligation4 (V8 m ρ)) (hin4 (V8 m ρ)) (hout4 (V8 m ρ))) ]
theorem main_run : main (F := F) c = Pipeline.Seg.run (segs m ρ) := (main_chain c).trans (by chain_rfl)

set_option backward.isDefEq.respectTransparency.types false in
/-- Every weakly fair execution of @main terminates, nothing faulting, with every unscoped buffer at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := Held (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- Every argument array ends as launched: none is written by a host operation, none is a region's output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c => by
    refine ⟨?_, ?_, ?_, ?_, ?_, ?_, ?_, ?_, ?_, ?_⟩ <;>
      exact (h c _ (mem_uc _ (by decide))).trans (W9_of_unwritten m ρ c _ (by decide))) (run_all m ρ)

end Cert.KernelIdeal.Hand

end
-- ==== Proof.Spec.lean ====
import proofs.«403130_j26560077758926_1_alg».proof.Proof.Gen.ReferenceIdeal
import Idealize.ShloMosaic.PureOps.Ideal

noncomputable section

namespace Cert.Spec

open Cert.ReferenceIdeal Cert.ReferenceIdeal.Facts₀ Idealize.ShloMosaic

variable {F : FTy → Type} [FloatOps F]

def wrapIdx (a : IVec S800000 32) : IVec S800000x1 32 :=
  broadcastInDim S800000x1 ![0] bcast_S800000_S800000x1_0 (select (cmpi .slt a (broadcastInDim S800000 ![] bcast_S_S800000 (constantI S_ 32 0#32))) (addi a (broadcastInDim S800000 ![] bcast_S_S800000 (constantI S_ 32 50000#32))) a)

def deg (dst : IVec S800000 32) : FVec F S50000 .f32 :=
  addf (Host.scatterAdd scatter_S50000_S800000x1_S800000_n_0_0_1 (broadcastInDim S50000 ![] bcast_S_S50000 (constant S_ .f32 0x00000000#32)) (wrapIdx dst) (broadcastInDim S800000 ![] bcast_S_S800000 (constant S_ .f32 0x3F800000#32))) (broadcastInDim S50000 ![] bcast_S_S50000 (constant S_ .f32 0x3F800000#32))

def norm (src dst : IVec S800000 32) : FVec F S800000 .f32 :=
  mulf (Host.gather gather_S50000_S800000x1_S800000_n_0_n_n_0_1_1 (Host.rsqrt (deg (F := F) dst)) (wrapIdx src)) (Host.gather gather_S50000_S800000x1_S800000_n_0_n_n_0_1_1 (Host.rsqrt (deg (F := F) dst)) (wrapIdx dst))

def invdeg (dst : IVec S800000 32) : FVec F S50000 .f32 :=
  Host.divf (broadcastInDim S50000 ![] bcast_S_S50000 (constant S_ .f32 0x3F800000#32)) (deg (F := F) dst)

def col (v : FVec F S50000 .f32) : FVec F S50000x1 .f32 := broadcastInDim S50000x1 ![0] bcast_S50000_S50000x1_0 v
def colI (v : IVec S50000 32) : IVec S50000x1 32 := broadcastInDim S50000x1 ![0] bcast_S50000_S50000x1_0 v
def row64 (b : FVec F S64 .f32) : FVec F S1x64 .f32 := broadcastInDim S1x64 ![1] bcast_S64_S1x64_1 b
def row8 (b : FVec F S8 .f32) : FVec F S1x8 .f32 := broadcastInDim S1x8 ![1] bcast_S8_S1x8_1 b

def aggN (h : FVec F S50000x64 .f32) (src dst : IVec S800000 32) (nrm : FVec F S800000 .f32) : FVec F S50000x64 .f32 :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (mulf (Host.gather gather_S50000x64_S800000x1_S800000x64_1_0_n_n_0_1_164 h (wrapIdx src)) (broadcastInDim S800000x64 ![0, 1] bcast_S800000x1_S800000x64_0_1 (broadcastInDim S800000x1 ![0] bcast_S800000_S800000x1_0 nrm)))

def agg (h : FVec F S50000x64 .f32) (src dst : IVec S800000 32) : FVec F S50000x64 .f32 :=
  aggN h src dst (norm (F := F) src dst)

def mm (x : FVec F S50000x64 .f32) (W : FVec F S64x64 .f32) : FVec F S50000x64 .f32 :=
  Host.dotGeneral dot_S50000x64_S64x64_S50000x64_1_0_0_1_n_n none x W

def combine (a h : FVec F S50000x64 .f32) (iv : FVec F S50000 .f32) (b : FVec F S64 .f32) : FVec F S50000x64 .f32 :=
  Host.tanh (addf (addf a (mulf h (broadcastInDim S50000x64 ![0, 1] bcast_S50000x1_S50000x64_0_1 (col iv)))) (broadcastInDim S50000x64 ![0, 1] bcast_S1x64_S50000x64_0_1 (row64 b)))

def layer (x : FVec F S50000x64 .f32) (W : FVec F S64x64 .f32) (b : FVec F S64 .f32) (src dst : IVec S800000 32) : FVec F S50000x64 .f32 :=
  combine (agg (mm x W) src dst) (mm x W) (invdeg (F := F) dst) b

def pool (h : FVec F S50000x64 .f32) (batch : IVec S50000 32) (Wfc : FVec F S64x8 .f32) (bfc : FVec F S8 .f32) : FVec F S128x8 .f32 :=
  addf (Host.dotGeneral dot_S128x64_S64x8_S128x8_1_0_0_1_n_n none (Host.divf (Host.scatterAdd scatter_S128x64_S50000x1_S50000x64_1_0_0_1 (broadcastInDim S128x64 ![] bcast_S_S128x64 (constant S_ .f32 0x00000000#32)) (colI batch) h) (broadcastInDim S128x64 ![0, 1] bcast_S128x1_S128x64_0_1 (broadcastInDim S128x1 ![0] bcast_S128_S128x1_0 (maximumf (Host.scatterAdd scatter_S128_S50000x1_S50000_n_0_0_1 (broadcastInDim S128 ![] bcast_S_S128 (constant S_ .f32 0x00000000#32)) (colI batch) (broadcastInDim S50000 ![] bcast_S_S50000 (constant S_ .f32 0x3F800000#32))) (broadcastInDim S128 ![] bcast_S_S128 (constant S_ .f32 0x3F800000#32)))))) Wfc) (broadcastInDim S128x8 ![0, 1] bcast_S1x8_S128x8_0_1 (row8 bfc))

def net (x : FVec F S50000x64 .f32) (src dst : IVec S800000 32) (batch : IVec S50000 32) (W1 : FVec F S64x64 .f32) (b1 : FVec F S64 .f32)
    (W2 : FVec F S64x64 .f32) (b2 : FVec F S64 .f32) (Wfc : FVec F S64x8 .f32) (bfc : FVec F S8 .f32) : FVec F S128x8 .f32 :=
  pool (layer (layer x W1 b1 src dst) W2 b2 src dst) batch Wfc bfc

end Cert.Spec

end
-- ==== Proof.KI.Host.lean ====
import proofs.«403130_j26560077758926_1_alg».proof.Proof.Gen.KernelIdeal.Launch
import proofs.«403130_j26560077758926_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.StableHlo Idealize.ShloMosaic.ValueIdx

section Reshape
variable {α : Type}

theorem reshape_col_eq {n : Nat} (x : (⟨1, ![n]⟩ : Shape).Idx → α)
    (h : (⟨1, ![n]⟩ : Shape).ShapeCasts ⟨2, ![n, 1]⟩) (hd : (⟨1, ![n]⟩ : Shape).BroadcastsInDim ⟨2, ![n, 1]⟩ ![0]) :
    shapeCast ⟨2, ![n, 1]⟩ x h = broadcastInDim ⟨2, ![n, 1]⟩ ![0] hd x := by
  funext i
  have e2 := shapeCast_apply x h i (ix1 (i 0 : Fin n)) (by
    rw [Shape.rowMajor_val_two, Shape.rowMajor_val_one]
    have h1 : (i 1).val < 1 := idx2_lt1 i
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · have h0 : (i 0).val < n := idx2_lt0 i; omega
      · rfl)
  exact e2.trans e3.symm

theorem reshape_row_eq {n : Nat} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  have e2 := shapeCast_apply x h i (ix1 (i 1 : Fin n)) (by
    rw [Shape.rowMajor_val_two, Shape.rowMajor_val_one]
    have h0 : (i 0).val < 1 := idx2_lt0 i
    show (i 1).val = (i 0).val * n + (i 1).val
    have e0 : (i 0).val = 0 := by omega
    rw [e0, Nat.zero_mul, Nat.zero_add])
  have e3 := broadcastInDim_apply ![1] hd x i (ix1 (i 1 : Fin n)) (by
    intro a
    match a with
    | ⟨0, _⟩ =>
      show (i 1).val = if n = 1 then 0 else (i 1).val
      split
      · have h1 : (i 1).val < n := idx2_lt1 i; omega
      · rfl)
  exact e2.trans e3.symm

end Reshape

theorem host0_norm (W : Valuation τ sig (Elt Ideal)) :
    StableHlo.after hostOps0 W (Proc.devRef .tc main_v26)
      = Cert.Spec.norm (F := Ideal) (W (Proc.devRef .tc main_arg1)) (W (Proc.devRef .tc main_arg2)) := by
  after_results_simp
  rfl

theorem host0_invdeg (W : Valuation τ sig (Elt Ideal)) :
    StableHlo.after hostOps0 W (Proc.devRef .tc main_v28)
      = Cert.Spec.invdeg (F := Ideal) (W (Proc.devRef .tc main_arg2)) := by
  after_results_simp
  rfl

theorem host1_agg (W : Valuation τ sig (Elt Ideal)) :
    StableHlo.after hostOps1 W (Proc.devRef .tc main_v42)
      = Cert.Spec.aggN (F := Ideal) (W (Proc.devRef .tc main_v29)) (W (Proc.devRef .tc main_arg1))
          (W (Proc.devRef .tc main_arg2)) (W (Proc.devRef .tc main_v26)) := by
  after_results_simp
  rfl

theorem host1_b (W : Valuation τ sig (Elt Ideal)) :
    StableHlo.after hostOps1 W (Proc.devRef .tc main_v43) = Cert.Spec.row64 (F := Ideal) (W (Proc.devRef .tc main_arg5)) := by
  after_results_simp
  exact reshape_row_eq _ _ _

theorem host1_iv (W : Valuation τ sig (Elt Ideal)) :
    StableHlo.after hostOps1 W (Proc.devRef .tc main_v44) = Cert.Spec.col (F := Ideal) (W (Proc.devRef .tc main_v28)) := by
  after_results_simp
  exact reshape_col_eq _ _ _

theorem host3_agg (W : Valuation τ sig (Elt Ideal)) :
    StableHlo.after hostOps3 W (Proc.devRef .tc main_v59)
      = Cert.Spec.aggN (F := Ideal) (W (Proc.devRef .tc main_v46)) (W (Proc.devRef .tc main_arg1))
          (W (Proc.devRef .tc main_arg2)) (W (Proc.devRef .tc main_v26)) := by
  after_results_simp
  rfl

theorem host3_b (W : Valuation τ sig (Elt Ideal)) :
    StableHlo.after hostOps3 W (Proc.devRef .tc main_v60) = Cert.Spec.row64 (F := Ideal) (W (Proc.devRef .tc main_arg7)) := by
  after_results_simp
  exact reshape_row_eq _ _ _

theorem host3_iv (W : Valuation τ sig (Elt Ideal)) :
    StableHlo.after hostOps3 W (Proc.devRef .tc main_v61) = Cert.Spec.col (F := Ideal) (W (Proc.devRef .tc main_v28)) := by
  after_results_simp
  exact reshape_col_eq _ _ _

theorem host4_batch (W : Valuation τ sig (Elt Ideal)) :
    StableHlo.after hostOps4 W (Proc.devRef .tc main_v63) = Cert.Spec.colI (W (Proc.devRef .tc main_arg3)) := by
  after_results_simp
  exact reshape_col_eq _ _ _

theorem host4_bfc (W : Valuation τ sig (Elt Ideal)) :
    StableHlo.after hostOps4 W (Proc.devRef .tc main_v64) = Cert.Spec.row8 (F := Ideal) (W (Proc.devRef .tc main_arg9)) := by
  after_results_simp
  exact reshape_row_eq _ _ _

end Cert.KernelIdeal.Hand

end
-- ==== Proof.PoolAt.lean ====
import proofs.«403130_j26560077758926_1_alg».proof.Proof.Spec
import Idealize.ShloMosaic.PureOps.Ideal.Laws
import Idealize.ShloMosaic.Lib.ValueIdxRank1
import Idealize.ShloMosaic.Lib.ValueLayout
import Idealize.ShloMosaic.Lib.Pipeline.Value
import Idealize.ShloMosaic.Lib.IdealHost
import Idealize.ShloMosaic.Lib.WordArith

set_option maxRecDepth 16384

noncomputable section

namespace Cert.Spec

open Cert.ReferenceIdeal Cert.ReferenceIdeal.Facts₀ Idealize.ShloMosaic Idealize.ShloMosaic.ValueIdx

local notation "D2" => scatter_S128x64_S50000x1_S50000x64_1_0_0_1
local notation "D1" => scatter_S128_S50000x1_S50000_n_0_0_1

def segSum (h : FVec Ideal S50000x64 .f32) (batch : IVec S50000 32) (g : Fin 128) (f : Fin 64) : EReal :=
  ∑ n : Fin 50000, if batch (ix1 n) = BitVec.ofNat 32 g.val then h (ix2 n f) else 0

def segCnt (batch : IVec S50000 32) (g : Fin 128) : EReal :=
  ∑ n : Fin 50000, if batch (ix1 n) = BitVec.ofNat 32 g.val then (1 : EReal) else 0

namespace PoolAt

-- A 32-bit word read signed is the natural number `g < 128` exactly when it is the word of `g`.
theorem toInt_eq_iff (b : BitVec 32) (g : Nat) (hg : g < 128) : b.toInt = (g : Int) ↔ b = BitVec.ofNat 32 g := by
  rw [← WordArith.toInt_ofNat_small g (by omega), BitVec.toInt_inj]

theorem colI_apply (batch : IVec S50000 32) (n : Fin 50000) : colI batch (ix2 n (0 : Fin 1)) = batch (ix1 n) :=
  broadcastInDim_apply _ bcast_S50000_S50000x1_0 batch _ (ix1 n) fun a => match a with | ⟨0, _⟩ => rfl

-- A rows-by-columns product at `(m, n)` sums, over the contraction coordinate `k`, the factors at `(m, k)` and `(k, n)`.
theorem sum_plain {M K N : ℕ} (L : (⟨2, ![M, K]⟩ : Shape).Idx → EReal) (R : (⟨2, ![K, N]⟩ : Shape).Idx → EReal) (m : Fin M) (n : Fin N) :
    ∑ q, L ((DotDims.plain M K N).lhsIdx (ix2 m n) q) * R ((DotDims.plain M K N).rhsIdx (ix2 m n) q)
      = ∑ k : Fin K, L (ix2 m k) * R (ix2 k n) := by
  rw [← Equiv.sum_comp (contrEquiv1 (DotDims.plain M K N) K rfl rfl).symm]
  refine Finset.sum_congr rfl fun k _ => ?_
  have hk := contrEquiv1_symm_val (DotDims.plain M K N) K rfl rfl k
  exact congrArg₂ (fun a b => L a * R b)
    (funext fun a => Fin.ext (match a with | ⟨0, _⟩ => rfl | ⟨1, _⟩ => hk))
    (funext fun a => Fin.ext (match a with | ⟨0, _⟩ => hk | ⟨1, _⟩ => rfl))

theorem sum_idx1 {M : Type*} [AddCommMonoid M] {n : Nat} (f : (⟨1, ![n]⟩ : Shape).Idx → M) :
    ∑ i, f i = ∑ a : Fin n, f (ix1 a) := (Equiv.sum_comp idxEquiv1.symm f).symm

-- An update lands on `i` exactly when its start plus its window coordinate is `i`'s coordinate on every axis.
theorem resultIdx?_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hc
      have e : (d.start j idx a + (d.window j a : Int)).toNat = (i a).val :=
        congrArg (fun f : s.Idx => (f a).val) (Option.some.inj h)
      have := hc a
      omega
    · cases h
  · intro e
    have hc : ∀ a, 0 ≤ d.start j idx a + (d.window j a : Int) ∧ d.start j idx a + (d.window j a : Int) < s.size a :=
      fun a => by have := (i a).isLt; rw [e a]; omega
    rw [dif_pos hc]
    exact congrArg some (funext fun a => Fin.ext (by
      show (d.start j idx a + (d.window j a : Int)).toNat = (i a).val
      rw [e a]; omega))

-- Update `(n, f')` of the row scatter lands on `(batch n, f')`.
theorem lands2 (batch : IVec S50000 32) (n : Fin 50000) (f' : Fin 64) (g : Fin 128) (f : Fin 64) :
    (D2).resultIdx? (ix2 n f') (colI batch) = some (ix2 g f) ↔ batch (ix1 n) = BitVec.ofNat 32 g.val ∧ f' = f := by
  have h0 : (D2).start (ix2 n f') (colI batch) 0 + ((D2).window (ix2 n f') 0 : Int) = (batch (ix1 n)).toInt := by
    show (colI batch ((D2).siIdx (ix2 n f') ⟨0, by decide⟩)).toInt + ((0 : ℕ) : Int) = _
    rw [show (D2).siIdx (ix2 n f') ⟨0, by decide⟩ = ix2 n (0 : Fin 1) from funext fun b => match b with | ⟨0, _⟩ => rfl | ⟨1, _⟩ => rfl,
      colI_apply, Nat.cast_zero, add_zero]
  have h1 : (D2).start (ix2 n f') (colI batch) 1 + ((D2).window (ix2 n f') 1 : Int) = (f'.val : Int) := zero_add _
  rw [resultIdx?_iff, ← toInt_eq_iff _ _ g.isLt, ← h0]
  exact ⟨fun h => ⟨h 0, Fin.ext (Int.ofNat_inj.mp (h1.symm.trans (h 1)))⟩,
    fun h a => match a with | ⟨0, _⟩ => h.1 | ⟨1, _⟩ => h1.trans (congrArg (fun k : Fin 64 => (k.val : Int)) h.2)⟩

-- Update `n` of the count scatter lands on `batch n`.
theorem lands1 (batch : IVec S50000 32) (n : Fin 50000) (g : Fin 128) :
    (D1).resultIdx? (ix1 n) (colI batch) = some (ix1 g) ↔ batch (ix1 n) = BitVec.ofNat 32 g.val := by
  have h0 : (D1).start (ix1 n) (colI batch) 0 + ((D1).window (ix1 n) 0 : Int) = (batch (ix1 n)).toInt := by
    show (colI batch ((D1).siIdx (ix1 n) ⟨0, by decide⟩)).toInt + ((0 : ℕ) : Int) = _
    rw [show (D1).siIdx (ix1 n) ⟨0, by decide⟩ = ix2 n (0 : Fin 1) from funext fun b => match b with | ⟨0, _⟩ => rfl | ⟨1, _⟩ => rfl,
      colI_apply, Nat.cast_zero, add_zero]
  rw [resultIdx?_iff, ← toInt_eq_iff _ _ g.isLt, ← h0]
  exact ⟨fun h => h 0, fun h a => match a with | ⟨0, _⟩ => h⟩

theorem scatterRows_apply (h : FVec Ideal S50000x64 .f32) (batch : IVec S50000 32) (g : Fin 128) (f : Fin 64) :
    Host.scatterAdd (F := Ideal) D2 (broadcastInDim S128x64 ![] bcast_S_S128x64 (constant S_ .f32 0x00000000#32)) (colI batch) h (ix2 g f)
      = segSum h batch g f := by
  show Ideal.hostScatterAdd D2 _ (colI batch) h (ix2 g f) = _
  unfold Ideal.hostScatterAdd segSum
  rw [broadcastInDim_scalar_apply, constant_apply, Ideal.ofBits_zero_f32, zero_add, Finset.sum_filter, sum_idx2]
  refine Finset.sum_congr rfl fun n _ => ?_
  simp only [lands2]
  by_cases hc : batch (ix1 n) = BitVec.ofNat 32 g.val <;> simp [hc]

theorem scatterOnes_apply (batch : IVec S50000 32) (g : Fin 128) :
    Host.scatterAdd (F := Ideal) D1 (broadcastInDim S128 ![] bcast_S_S128 (constant S_ .f32 0x00000000#32)) (colI batch)
        (broadcastInDim S50000 ![] bcast_S_S50000 (constant S_ .f32 0x3F800000#32)) (ix1 g)
      = segCnt batch g := by
  show Ideal.hostScatterAdd D1 _ (colI batch) _ (ix1 g) = _
  unfold Ideal.hostScatterAdd segCnt
  rw [broadcastInDim_scalar_apply, constant_apply, Ideal.ofBits_zero_f32, zero_add, Finset.sum_filter, sum_idx1]
  refine Finset.sum_congr rfl fun n _ => ?_
  simp only [lands1]
  rw [broadcastInDim_scalar_apply, constant_apply, Ideal.ofBits_one_f32]

theorem divisor_apply (batch : IVec S50000 32) (g : Fin 128) (f : Fin 64) :
    broadcastInDim (α := Ideal .f32) S128x64 ![0, 1] bcast_S128x1_S128x64_0_1 (broadcastInDim S128x1 ![0] bcast_S128_S128x1_0
      (maximumf (Host.scatterAdd (F := Ideal) D1 (broadcastInDim S128 ![] bcast_S_S128 (constant S_ .f32 0x00000000#32)) (colI batch)
        (broadcastInDim S50000 ![] bcast_S_S50000 (constant S_ .f32 0x3F800000#32)))
        (broadcastInDim S128 ![] bcast_S_S128 (constant S_ .f32 0x3F800000#32)))) (ix2 g f)
      = max (segCnt batch g) 1 := by
  rw [broadcastInDim_apply _ bcast_S128x1_S128x64_0_1 _ _ (ix2 g (0 : Fin 1)) fun a => match a with | ⟨0, _⟩ => rfl | ⟨1, _⟩ => rfl,
    broadcastInDim_apply _ bcast_S128_S128x1_0 _ _ (ix1 g) fun a => match a with | ⟨0, _⟩ => rfl,
    maximumf_apply, scatterOnes_apply, broadcastInDim_scalar_apply, constant_apply, Ideal.ofBits_one_f32]

theorem bias_apply (bfc : FVec Ideal S8 .f32) (g : Fin 128) (o : Fin 8) :
    broadcastInDim S128x8 ![0, 1] bcast_S1x8_S128x8_0_1 (row8 bfc) (ix2 g o) = bfc (ix1 o) := by
  unfold row8
  rw [broadcastInDim_apply _ bcast_S1x8_S128x8_0_1 _ _ (ix2 (0 : Fin 1) o) fun a => match a with | ⟨0, _⟩ => rfl | ⟨1, _⟩ => rfl,
    broadcastInDim_apply _ bcast_S8_S1x8_1 bfc _ (ix1 o) fun a => match a with | ⟨0, _⟩ => rfl]

end PoolAt

open PoolAt in
-- The pooling stage at `(g, o)`: the mean row of graph `g` against column `o` of the weights, plus the bias.
theorem pool_apply (h : FVec Ideal S50000x64 .f32) (batch : IVec S50000 32) (Wfc : FVec Ideal S64x8 .f32) (bfc : FVec Ideal S8 .f32)
    (g : Fin 128) (o : Fin 8) :
    Cert.Spec.pool (F := Ideal) h batch Wfc bfc (ix2 g o)
      = (∑ f : Fin 64, Ideal.div (segSum h batch g f) (max (segCnt batch g) 1) * Wfc (ix2 f o)) + bfc (ix1 o) := by
  unfold pool
  rw [addf_apply, bias_apply]
  refine congrArg (· + bfc (ix1 o)) ?_
  simp only [Host.dotGeneral]
  rw [Ideal.dotGeneral_apply]
  refine (sum_plain _ _ g o).trans (Finset.sum_congr rfl fun k _ => congrArg (· * Wfc (ix2 k o)) ?_)
  rw [hostDivf_apply, scatterRows_apply, divisor_apply]

end Cert.Spec
end
-- ==== Proof.KI.Val0.lean ====
import proofs.«403130_j26560077758926_1_alg».proof.Proof.KI.R0
import proofs.«403130_j26560077758926_1_alg».proof.Proof.PoolAt

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- The kernel's product at an index: the block's row against the weights' column.
theorem body0_apply (xa : FVec Ideal S5000x64 .f32) (xb : FVec Ideal S64x64 .f32) (p : Fin 5000) (q : Fin 64) :
    k0_pay1 (F := Ideal) xa xb (ix2 p q) = ∑ k : Fin 64, xa (ix2 p k) * xb (ix2 k q) := by
  unfold k0_pay1
  try rw [shapeCast_self]
  exact (Ideal.matmul_constant_zero_apply dot_S5000x64_S64x64_S5000x64_1_0_0_1_n_n none _ _ (ix2 p q)).trans
    (Cert.Spec.PoolAt.sum_plain _ _ p q)

-- The reference's product at an index, the same sum.
theorem mm0_apply (x : FVec Ideal Cert.ReferenceIdeal.S50000x64 .f32) (W : FVec Ideal Cert.ReferenceIdeal.S64x64 .f32) (r : Fin 50000) (q : Fin 64) :
    Cert.Spec.mm (F := Ideal) x W (ix2 r q) = ∑ k : Fin 64, x (ix2 r k) * W (ix2 k q) := by
  unfold Cert.Spec.mm
  simp only [Host.dotGeneral]
  exact (Ideal.dotGeneral_apply _ _ _ _ _ _).trans (Cert.Spec.PoolAt.sum_plain _ _ r q)

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem idx_onto0 : ∀ (n : Fin 10), ∃ t : Fin cfg0.N, t.val = n.val :=
  (by decide +kernel : ∀ (n : Fin 10), ∃ t : Fin grid0.N, t.val = n.val)

theorem lt_N0 (t : Fin cfg0.N) : t.val < 10 := by have := t.isLt; have h : cfg0.N = 10 := N_0; omega

theorem iblk0_a (c : Dev nD) (t : Fin cfg0.N) (p : Fin 5000) (k : Fin 64) (r : Fin 50000) (hr : r.val = 5000 * t.val + p.val) :
    (iblk0 V c 0 t : Vec Ideal S5000x64 .f32) (ix2 p k) = (V c (Pipeline.arrRef spec0 0) : FVec Ideal S50000x64 .f32) (ix2 r k) := by
  unfold iblk0
  rw [View.read_apply]
  refine congrArg (V c (Pipeline.arrRef spec0 0)) (funext fun a => Fin.ext ?_)
  obtain ⟨ea, eb, -⟩ := idx_facts0 t
  match a with
  | ⟨0, _⟩ => show win0_0.index t (0 : Fin 2) * 5000 + 1 * p.val = r.val; rw [ea, hr]; omega
  | ⟨1, _⟩ => show win0_0.index t (1 : Fin 2) * 64 + 1 * k.val = k.val; rw [eb]; omega

theorem iblk0_b (c : Dev nD) (t : Fin cfg0.N) :
    (iblk0 V c 1 t : Vec Ideal S64x64 .f32) = (V c (Pipeline.arrRef spec0 1) : FVec Ideal S64x64 .f32) := by
  funext j
  unfold iblk0
  rw [View.read_apply]
  refine congrArg (V c (Pipeline.arrRef spec0 1)) (funext fun a => Fin.ext ?_)
  obtain ⟨-, -, ea, eb, -⟩ := idx_facts0 t
  match a with
  | ⟨0, _⟩ => show win0_1.index t (0 : Fin 2) * 64 + 1 * (j 0).val = (j 0).val; rw [ea]; omega
  | ⟨1, _⟩ => show win0_1.index t (1 : Fin 2) * 64 + 1 * (j 1).val = (j 1).val; rw [eb]; omega

theorem blk0_eq (A : FVec Ideal S50000x64 .f32) (W : FVec Ideal S64x64 .f32) (xa : FVec Ideal S5000x64 .f32) (xb : FVec Ideal S64x64 .f32)
    (p : Fin 5000) (q : Fin 64) (r : Fin 50000)
    (ha : ∀ k : Fin 64, xa (ix2 p k) = A (ix2 r k)) (hb : xb = W) :
    k0_pay1 (F := Ideal) xa xb (ix2 p q) = Cert.Spec.mm (F := Ideal) A W (ix2 r q) := by
  rw [body0_apply, mm0_apply, hb]
  exact Finset.sum_congr rfl fun k _ => by rw [ha k]

theorem flushed0_eq (c : Dev nD) (t : Fin cfg0.N) :
    (dat0 (F := Ideal) V c).flushed 2 t = ((cfg0.win 2).blk t).view.read (Elt Ideal) (Cert.Spec.mm (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  funext j
  have hp : (j 0).val < 5000 := (j 0).isLt
  have hq : (j 1).val < 64 := (j 1).isLt
  have ht := lt_N0 t
  obtain ⟨-, -, -, -, ea, eb⟩ := idx_facts0 t
  have ej : (cfg0.win 2).xinj (grid0.coords t) j = ix2 (⟨(j 0).val, hp⟩ : Fin 5000) (⟨(j 1).val, hq⟩ : Fin 64) := by
    funext a; match a with | ⟨0, _⟩ => rfl | ⟨1, _⟩ => rfl
  have ei : ((cfg0.win 2).blk t).view.emb j = ix2 (⟨5000 * t.val + (j 0).val, by omega⟩ : Fin 50000) (⟨(j 1).val, hq⟩ : Fin 64) := by
    funext a; apply Fin.ext
    match a with
    | ⟨0, _⟩ => show win0_2.index t (0 : Fin 2) * 5000 + 1 * (j 0).val = 5000 * t.val + (j 0).val; rw [ea]; omega
    | ⟨1, _⟩ => show win0_2.index t (1 : Fin 2) * 64 + 1 * (j 1).val = (j 1).val; rw [eb]; omega
  show k0_pay1 (F := Ideal) (iblk0 V c 0 t) (iblk0 V c 1 t) ((cfg0.win 2).xinj (grid0.coords t) j) = Cert.Spec.mm (F := Ideal) (V c (Pipeline.arrRef spec0 0)) (V c (Pipeline.arrRef spec0 1)) (((cfg0.win 2).blk t).view.emb j)
  rw [ej, ei]
  exact blk0_eq _ _ _ _ _ _ _
    (fun k => iblk0_a V c t _ k _ rfl) (iblk0_b V c t)

theorem covered0 (i : S50000x64.Idx) :
    ∃ t : Fin cfg0.N, (cfg0.win 2).flush t = true ∧ i ∈ ((cfg0.win 2).blk t).view.set := by
  have hr : (i 0).val < 50000 := (i 0).isLt
  have hq : (i 1).val < 64 := (i 1).isLt
  obtain ⟨t, ht⟩ := idx_onto0 ⟨(i 0).val / 5000, by omega⟩
  have ht' : t.val = (i 0).val / 5000 := ht
  obtain ⟨-, -, -, -, ea, eb⟩ := idx_facts0 t
  refine ⟨t, flush0_2 t, ?_⟩
  show i ∈ ((View.whole (Pipeline.arrRef spec0 2)).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [ea]; omega
  | ⟨1, _⟩ => show win0_2.index t (1 : Fin 2) * 64 ≤ (i 1).val ∧ (i 1).val < win0_2.index t (1 : Fin 2) * 64 + 64; rw [eb]; omega

theorem final0 (c : Dev nD) :
    (dat0 (F := Ideal) V c).arrAt 2 cfg0.N = Cert.Spec.mm (F := Ideal) (V c (Pipeline.arrRef spec0 0)) (V c (Pipeline.arrRef spec0 1)) :=
  (dat0 (F := Ideal) V c).arrAt_eq_of_cover 2 _ (fun t _ => flushed0_eq V c t) covered0

end Cert.KernelIdeal.Hand

end
-- ==== Proof.KI.Val1.lean ====
import proofs.«403130_j26560077758926_1_alg».proof.Proof.KI.R1
import proofs.«403130_j26560077758926_1_alg».proof.Proof.Spec
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem bcol1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem body1_apply (xa xb : FVec Ideal S5000x64 .f32) (xc : FVec Ideal S5000x1 .f32) (xd : FVec Ideal S1x64 .f32) (p : Fin 5000) (q : Fin 64) :
    k1_pay1 (F := Ideal) xa xb xc xd (ix2 p q)
      = Ideal.tanh ((xa (ix2 p q) + xb (ix2 p q) * xc (ix2 p (0 : Fin 1))) + xd (ix2 (0 : Fin 1) q)) := by
  unfold k1_pay1
  simp only [shapeCast_self]
  exact congrArg₂ (fun u v => Ideal.tanh ((xa (ix2 p q) + xb (ix2 p q) * u) + v)) (bcol1_apply xc _ p q)
    (broadcastTo_1b_ab_apply xd _ p q)

theorem combine1_apply (A H : FVec Ideal Cert.ReferenceIdeal.S50000x64 .f32) (iv : FVec Ideal Cert.ReferenceIdeal.S50000 .f32) (b : FVec Ideal Cert.ReferenceIdeal.S64 .f32)
    (r : Fin 50000) (q : Fin 64) :
    Cert.Spec.combine (F := Ideal) A H iv b (ix2 r q)
      = Ideal.tanh ((A (ix2 r q) + H (ix2 r q) * Cert.Spec.col (F := Ideal) iv (ix2 r (0 : Fin 1))) + Cert.Spec.row64 (F := Ideal) b (ix2 (0 : Fin 1) q)) := by
  unfold Cert.Spec.combine
  exact congrArg₂ (fun u v => Ideal.tanh ((A (ix2 r q) + H (ix2 r q) * u) + v))
    (broadcastInDim_apply _ _ (Cert.Spec.col (F := Ideal) iv) (ix2 r q) (ix2 r (0 : Fin 1)) fun a => match a with
      | ⟨0, _⟩ => rfl
      | ⟨1, _⟩ => rfl)
    (broadcastInDim_apply _ _ (Cert.Spec.row64 (F := Ideal) b) (ix2 r q) (ix2 (0 : Fin 1) q) fun a => match a with
      | ⟨0, _⟩ => rfl
      | ⟨1, _⟩ => rfl)

theorem hz1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem idx_onto1 : ∀ (n : Fin 10), ∃ t : Fin cfg1.N, t.val = n.val :=
  (by decide +kernel : ∀ (n : Fin 10), ∃ t : Fin grid1.N, t.val = n.val)

theorem lt_N1 (t : Fin cfg1.N) : t.val < 10 := by have := t.isLt; have h : cfg1.N = 10 := N_1; omega

variable (c : Dev nD) (iv : FVec Ideal Cert.ReferenceIdeal.S50000 .f32) (b : FVec Ideal Cert.ReferenceIdeal.S64 .f32)

theorem iblk1_a (t : Fin cfg1.N) (p : Fin 5000) (k : Fin 64) (r : Fin 50000) (hr : r.val = 5000 * t.val + p.val) :
    (iblk1 V c 0 t : Vec Ideal S5000x64 .f32) (ix2 p k) = (V c (Pipeline.arrRef spec1 0) : FVec Ideal S50000x64 .f32) (ix2 r k) := by
  unfold iblk1
  rw [View.read_apply]
  refine congrArg (V c (Pipeline.arrRef spec1 0)) (funext fun a => Fin.ext ?_)
  obtain ⟨ea, eb, -⟩ := idx_facts1 t
  match a with
  | ⟨0, _⟩ => show win1_0.index t (0 : Fin 2) * 5000 + 1 * p.val = r.val; rw [ea, hr]; omega
  | ⟨1, _⟩ => show win1_0.index t (1 : Fin 2) * 64 + 1 * k.val = k.val; rw [eb]; omega

theorem iblk1_b (t : Fin cfg1.N) (p : Fin 5000) (k : Fin 64) (r : Fin 50000) (hr : r.val = 5000 * t.val + p.val) :
    (iblk1 V c 1 t : Vec Ideal S5000x64 .f32) (ix2 p k) = (V c (Pipeline.arrRef spec1 1) : FVec Ideal S50000x64 .f32) (ix2 r k) := by
  unfold iblk1
  rw [View.read_apply]
  refine congrArg (V c (Pipeline.arrRef spec1 1)) (funext fun a => Fin.ext ?_)
  obtain ⟨-, -, ea, eb, -⟩ := idx_facts1 t
  match a with
  | ⟨0, _⟩ => show win1_1.index t (0 : Fin 2) * 5000 + 1 * p.val = r.val; rw [ea, hr]; omega
  | ⟨1, _⟩ => show win1_1.index t (1 : Fin 2) * 64 + 1 * k.val = k.val; rw [eb]; omega

theorem iblk1_c (t : Fin cfg1.N) (p : Fin 5000) (r : Fin 50000) (hr : r.val = 5000 * t.val + p.val) :
    (iblk1 V c 2 t : Vec Ideal S5000x1 .f32) (ix2 p (0 : Fin 1)) = (V c (Pipeline.arrRef spec1 2) : FVec Ideal S50000x1 .f32) (ix2 r (0 : Fin 1)) := by
  unfold iblk1
  rw [View.read_apply]
  refine congrArg (V c (Pipeline.arrRef spec1 2)) (funext fun a => Fin.ext ?_)
  obtain ⟨-, -, -, -, ea, eb, -⟩ := idx_facts1 t
  match a with
  | ⟨0, _⟩ => show win1_2.index t (0 : Fin 2) * 5000 + 1 * p.val = r.val; rw [ea, hr]; omega
  | ⟨1, _⟩ => show win1_2.index t (1 : Fin 2) * 1 + 1 * 0 = 0; rw [eb]

theorem iblk1_d (t : Fin cfg1.N) :
    (iblk1 V c 3 t : Vec Ideal S1x64 .f32) = (V c (Pipeline.arrRef spec1 3) : FVec Ideal S1x64 .f32) := by
  funext j
  unfold iblk1
  rw [View.read_apply]
  refine congrArg (V c (Pipeline.arrRef spec1 3)) (funext fun a => Fin.ext ?_)
  obtain ⟨-, -, -, -, -, -, ea, eb, -⟩ := idx_facts1 t
  match a with
  | ⟨0, _⟩ => show win1_3.index t (0 : Fin 2) * 1 + 1 * (j 0).val = (j 0).val; rw [ea]; omega
  | ⟨1, _⟩ => show win1_3.index t (1 : Fin 2) * 64 + 1 * (j 1).val = (j 1).val; rw [eb]; omega

theorem blk1_eq (A H : FVec Ideal S50000x64 .f32) (xa xb : FVec Ideal S5000x64 .f32) (xc : FVec Ideal S5000x1 .f32) (xd : FVec Ideal S1x64 .f32)
    (p : Fin 5000) (q : Fin 64) (r : Fin 50000)
    (ha : xa (ix2 p q) = A (ix2 r q)) (hh : xb (ix2 p q) = H (ix2 r q))
    (hc : xc (ix2 p (0 : Fin 1)) = Cert.Spec.col (F := Ideal) iv (ix2 r (0 : Fin 1))) (hd : xd = Cert.Spec.row64 (F := Ideal) b) :
    k1_pay1 (F := Ideal) xa xb xc xd (ix2 p q) = Cert.Spec.combine (F := Ideal) A H iv b (ix2 r q) := by
  rw [body1_apply, combine1_apply, ha, hh, hc, hd]

theorem covered1 (i : S50000x64.Idx) :
    ∃ t : Fin cfg1.N, (cfg1.win 4).flush t = true ∧ i ∈ ((cfg1.win 4).blk t).view.set := by
  have hr : (i 0).val < 50000 := (i 0).isLt
  have hq : (i 1).val < 64 := (i 1).isLt
  obtain ⟨t, ht⟩ := idx_onto1 ⟨(i 0).val / 5000, by omega⟩
  have ht' : t.val = (i 0).val / 5000 := ht
  obtain ⟨-, -, -, -, -, -, -, -, ea, eb⟩ := idx_facts1 t
  refine ⟨t, flush1_4 t, ?_⟩
  show i ∈ ((View.whole (Pipeline.arrRef spec1 4)).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; rw [ea]; omega
  | ⟨1, _⟩ => show win1_4.index t (1 : Fin 2) * 64 ≤ (i 1).val ∧ (i 1).val < win1_4.index t (1 : Fin 2) * 64 + 64; rw [eb]; omega

variable (hiv : V c (Pipeline.arrRef spec1 2) = Cert.Spec.col (F := Ideal) iv) (hb : V c (Pipeline.arrRef spec1 3) = Cert.Spec.row64 (F := Ideal) b)
include hiv hb

theorem flushed1_eq (t : Fin cfg1.N) :
    (dat1 (F := Ideal) V c).flushed 4 t = ((cfg1.win 4).blk t).view.read (Elt Ideal) (Cert.Spec.combine (F := Ideal) (V c (Pipeline.arrRef spec1 0)) (V c (Pipeline.arrRef spec1 1)) iv b) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S5000x1) hz1, View.ld_unit_zero (S := S1x64) hz1]
  funext j
  have hp : (j 0).val < 5000 := (j 0).isLt
  have hq : (j 1).val < 64 := (j 1).isLt
  have ht := lt_N1 t
  obtain ⟨-, -, -, -, -, -, -, -, ea, eb⟩ := idx_facts1 t
  have ej : (cfg1.win 4).xinj (grid1.coords t) j = ix2 (⟨(j 0).val, hp⟩ : Fin 5000) (⟨(j 1).val, hq⟩ : Fin 64) := by
    funext a; match a with | ⟨0, _⟩ => rfl | ⟨1, _⟩ => rfl
  have ei : ((cfg1.win 4).blk t).view.emb j = ix2 (⟨5000 * t.val + (j 0).val, by omega⟩ : Fin 50000) (⟨(j 1).val, hq⟩ : Fin 64) := by
    funext a; apply Fin.ext
    match a with
    | ⟨0, _⟩ => show win1_4.index t (0 : Fin 2) * 5000 + 1 * (j 0).val = 5000 * t.val + (j 0).val; rw [ea]; omega
    | ⟨1, _⟩ => show win1_4.index t (1 : Fin 2) * 64 + 1 * (j 1).val = (j 1).val; rw [eb]; omega
  show k1_pay1 (F := Ideal) (iblk1 V c 0 t) (iblk1 V c 1 t) (iblk1 V c 2 t) (iblk1 V c 3 t) ((cfg1.win 4).xinj (grid1.coords t) j) = Cert.Spec.combine (F := Ideal) (V c (Pipeline.arrRef spec1 0)) (V c (Pipeline.arrRef spec1 1)) iv b (((cfg1.win 4).blk t).view.emb j)
  rw [ej, ei]
  exact blk1_eq iv b _ _ _ _ _ _ _ _ _
    (iblk1_a V c t _ _ _ rfl) (iblk1_b V c t _ _ _ rfl)
    ((iblk1_c V c t _ _ rfl).trans (congrFun hiv _)) ((iblk1_d V c t).trans hb)

theorem final1 :
    (dat1 (F := Ideal) V c).arrAt 4 cfg1.N = Cert.Spec.combine (F := Ideal) (V c (Pipeline.arrRef spec1 0)) (V c (Pipeline.arrRef spec1 1)) iv b :=
  (dat1 (F := Ideal) V c).arrAt_eq_of_cover 4 _ (fun t _ => flushed1_eq V c iv b hiv hb t) covered1

end Cert.KernelIdeal.Hand

end
-- ==== Proof.KI.Val2.lean ====
import proofs.«403130_j26560077758926_1_alg».proof.Proof.KI.R2
import proofs.«403130_j26560077758926_1_alg».proof.Proof.KI.Val0
import proofs.«403130_j26560077758926_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Region 2's payload is region 0's behind an identity reshape. -/
theorem body2_apply (xa : FVec Ideal S5000x64 .f32) (xb : FVec Ideal S64x64 .f32) (p : Fin 5000) (q : Fin 64) :
    k2_pay1 (F := Ideal) xa xb (ix2 p q) = ∑ k : Fin 64, xa (ix2 p k) * xb (ix2 k q) := by
  unfold k2_pay1; rw [shapeCast_self]; exact body0_apply xa xb p q

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem idx_onto2 : ∀ (n : Fin 10), ∃ t : Fin cfg2.N, t.val = n.val :=
  (by decide +kernel : ∀ (n : Fin 10), ∃ t : Fin grid2.N, t.val = n.val)

theorem lt_N2 (t : Fin cfg2.N) : t.val < 10 := by have := t.isLt; have h : cfg2.N = 10 := N_2; omega

theorem iblk2_a (c : Dev nD) (t : Fin cfg2.N) (p : Fin 5000) (k : Fin 64) (r : Fin 50000) (hr : r.val = 5000 * t.val + p.val) :
    (iblk2 V c 0 t : Vec Ideal S5000x64 .f32) (ix2 p k) = (V c (Pipeline.arrRef spec2 0) : FVec Ideal S50000x64 .f32) (ix2 r k) := by
  unfold iblk2
  rw [View.read_apply]
  show V c (Pipeline.arrRef spec2 0) _ = V c (Pipeline.arrRef spec2 0) _
  refine congrArg _ ?_
  funext a
  apply Fin.ext
  obtain ⟨ea, eb, -⟩ := idx_facts2 t
  match a with
  | ⟨0, _⟩ => show win2_0.index t (0 : Fin 2) * 5000 + 1 * p.val = r.val; rw [ea, hr]; omega
  | ⟨1, _⟩ => show win2_0.index t (1 : Fin 2) * 64 + 1 * k.val = k.val; rw [eb]; omega

theorem iblk2_b (c : Dev nD) (t : Fin cfg2.N) :
    (iblk2 V c 1 t : Vec Ideal S64x64 .f32) = (V c (Pipeline.arrRef spec2 1) : FVec Ideal S64x64 .f32) := by
  funext j
  unfold iblk2
  rw [View.read_apply]
  show V c (Pipeline.arrRef spec2 1) _ = V c (Pipeline.arrRef spec2 1) _
  refine congrArg _ ?_
  funext a
  apply Fin.ext
  obtain ⟨-, -, ea, eb, -⟩ := idx_facts2 t
  match a with
  | ⟨0, _⟩ => show win2_1.index t (0 : Fin 2) * 64 + 1 * (j 0).val = (j 0).val; rw [ea]; omega
  | ⟨1, _⟩ => show win2_1.index t (1 : Fin 2) * 64 + 1 * (j 1).val = (j 1).val; rw [eb]; omega

theorem blk2_eq (A : FVec Ideal S50000x64 .f32) (W : FVec Ideal S64x64 .f32) (xa : FVec Ideal S5000x64 .f32) (xb : FVec Ideal S64x64 .f32)
    (p : Fin 5000) (q : Fin 64) (r : Fin 50000)
    (ha : ∀ k : Fin 64, xa (ix2 p k) = A (ix2 r k)) (hb : xb = W) :
    k2_pay1 (F := Ideal) xa xb (ix2 p q) = Cert.Spec.mm (F := Ideal) A W (ix2 r q) := by
  rw [body2_apply, mm0_apply, hb]
  exact Finset.sum_congr rfl fun k _ => by rw [ha k]

theorem flushed2_eq (c : Dev nD) (t : Fin cfg2.N) :
    (dat2 (F := Ideal) V c).flushed 2 t = ((cfg2.win 2).blk t).view.read (Elt Ideal) (Cert.Spec.mm (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero hz0]
  simp only [View.ld_unit_zero (S := S5000x64) hz0, View.ld_unit_zero (S := S64x64) hz0]
  funext j
  have hp : (j 0).val < 5000 := (j 0).isLt
  have hq : (j 1).val < 64 := (j 1).isLt
  have ht := lt_N2 t
  obtain ⟨-, -, -, -, ea, eb⟩ := idx_facts2 t
  have ej : (cfg2.win 2).xinj (grid2.coords t) j = ix2 (⟨(j 0).val, hp⟩ : Fin 5000) (⟨(j 1).val, hq⟩ : Fin 64) := by
    funext a; match a with | ⟨0, _⟩ => rfl | ⟨1, _⟩ => rfl
  have ei : ((cfg2.win 2).blk t).view.emb j = ix2 (⟨5000 * t.val + (j 0).val, by omega⟩ : Fin 50000) (⟨(j 1).val, hq⟩ : Fin 64) := by
    funext a; apply Fin.ext
    match a with
    | ⟨0, _⟩ => show win2_2.index t (0 : Fin 2) * 5000 + 1 * (j 0).val = 5000 * t.val + (j 0).val; rw [ea]; omega
    | ⟨1, _⟩ => show win2_2.index t (1 : Fin 2) * 64 + 1 * (j 1).val = (j 1).val; rw [eb]; omega
  show k2_pay1 (F := Ideal) (iblk2 V c 0 t) (iblk2 V c 1 t) ((cfg2.win 2).xinj (grid2.coords t) j) = Cert.Spec.mm (F := Ideal) (V c (Pipeline.arrRef spec2 0)) (V c (Pipeline.arrRef spec2 1)) (((cfg2.win 2).blk t).view.emb j)
  rw [ej, ei]
  exact blk2_eq (V c (Pipeline.arrRef spec2 0)) (V c (Pipeline.arrRef spec2 1)) (iblk2 V c 0 t) (iblk2 V c 1 t) _ _ _
    (fun k => iblk2_a V c t _ k _ rfl) (iblk2_b V c t)

theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole (Pipeline.arrRef spec2 2)).slice (win2_2.rect t)).set ↔ _
  rw [View.set_slice_whole, Rect.mem_set_unit]
  exact Iff.rfl

theorem covered2 (i : S50000x64.Idx) :
    ∃ t : Fin cfg2.N, (cfg2.win 2).flush t = true ∧ i ∈ ((cfg2.win 2).blk t).view.set := by
  have hr : (i 0).val < 50000 := (i 0).isLt
  have hq : (i 1).val < 64 := (i 1).isLt
  obtain ⟨t, ht⟩ := idx_onto2 ⟨(i 0).val / 5000, by omega⟩
  have ht' : t.val = (i 0).val / 5000 := ht
  obtain ⟨-, -, -, -, ea, eb⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [ea]; omega
  | ⟨1, _⟩ => show win2_2.index t (1 : Fin 2) * 64 ≤ (i 1).val ∧ (i 1).val < win2_2.index t (1 : Fin 2) * 64 + 64; rw [eb]; omega

theorem final2 (c : Dev nD) :
    (dat2 (F := Ideal) V c).arrAt 2 cfg2.N = Cert.Spec.mm (F := Ideal) (V c (Pipeline.arrRef spec2 0)) (V c (Pipeline.arrRef spec2 1)) :=
  (dat2 (F := Ideal) V c).arrAt_eq_of_cover 2 _ (fun t _ => flushed2_eq V c t) covered2

end Cert.KernelIdeal.Hand

end
-- ==== Proof.KI.Val3.lean ====
import proofs.«403130_j26560077758926_1_alg».proof.Proof.KI.R3
import proofs.«403130_j26560077758926_1_alg».proof.Proof.KI.Val1
import proofs.«403130_j26560077758926_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem body3_apply (xa xb : FVec Ideal S5000x64 .f32) (xc : FVec Ideal S5000x1 .f32) (xd : FVec Ideal S1x64 .f32) (p : Fin 5000) (q : Fin 64) :
    k3_pay1 (F := Ideal) xa xb xc xd (ix2 p q)
      = Ideal.tanh ((xa (ix2 p q) + xb (ix2 p q) * xc (ix2 p (0 : Fin 1))) + xd (ix2 (0 : Fin 1) q)) := by
  unfold k3_pay1
  simp only [shapeCast_self]
  have ec : broadcastTo S5000x64 xc broadcasts_S5000x1_S5000x64 (ix2 p q) = xc (ix2 p (0 : Fin 1)) := bcol1_apply xc _ p q
  have ed : broadcastTo S5000x64 xd broadcasts_S1x64_S5000x64 (ix2 p q) = xd (ix2 (0 : Fin 1) q) := broadcastTo_1b_ab_apply xd _ p q
  show Ideal.tanh ((xa (ix2 p q) + xb (ix2 p q) * broadcastTo S5000x64 xc broadcasts_S5000x1_S5000x64 (ix2 p q)) + broadcastTo S5000x64 xd broadcasts_S1x64_S5000x64 (ix2 p q)) = _
  rw [ec, ed]

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem idx_onto3 : ∀ (n : Fin 10), ∃ t : Fin cfg3.N, t.val = n.val :=
  (by decide +kernel : ∀ (n : Fin 10), ∃ t : Fin grid3.N, t.val = n.val)

theorem lt_N3 (t : Fin cfg3.N) : t.val < 10 := by have := t.isLt; have h : cfg3.N = 10 := N_3; omega

theorem iblk3_a (c : Dev nD) (t : Fin cfg3.N) (p : Fin 5000) (k : Fin 64) (r : Fin 50000) (hr : r.val = 5000 * t.val + p.val) :
    (iblk3 V c 0 t : Vec Ideal S5000x64 .f32) (ix2 p k) = (V c (Pipeline.arrRef spec3 0) : FVec Ideal S50000x64 .f32) (ix2 r k) := by
  unfold iblk3
  rw [View.read_apply]
  show V c (Pipeline.arrRef spec3 0) _ = V c (Pipeline.arrRef spec3 0) _
  refine congrArg _ ?_
  funext a
  apply Fin.ext
  obtain ⟨ea, eb, -⟩ := idx_facts3 t
  match a with
  | ⟨0, _⟩ => show win3_0.index t (0 : Fin 2) * 5000 + 1 * p.val = r.val; rw [ea, hr]; omega
  | ⟨1, _⟩ => show win3_0.index t (1 : Fin 2) * 64 + 1 * k.val = k.val; rw [eb]; omega

theorem iblk3_b (c : Dev nD) (t : Fin cfg3.N) (p : Fin 5000) (k : Fin 64) (r : Fin 50000) (hr : r.val = 5000 * t.val + p.val) :
    (iblk3 V c 1 t : Vec Ideal S5000x64 .f32) (ix2 p k) = (V c (Pipeline.arrRef spec3 1) : FVec Ideal S50000x64 .f32) (ix2 r k) := by
  unfold iblk3
  rw [View.read_apply]
  show V c (Pipeline.arrRef spec3 1) _ = V c (Pipeline.arrRef spec3 1) _
  refine congrArg _ ?_
  funext a
  apply Fin.ext
  obtain ⟨-, -, ea, eb, -⟩ := idx_facts3 t
  match a with
  | ⟨0, _⟩ => show win3_1.index t (0 : Fin 2) * 5000 + 1 * p.val = r.val; rw [ea, hr]; omega
  | ⟨1, _⟩ => show win3_1.index t (1 : Fin 2) * 64 + 1 * k.val = k.val; rw [eb]; omega

theorem iblk3_c (c : Dev nD) (t : Fin cfg3.N) (p : Fin 5000) (r : Fin 50000) (hr : r.val = 5000 * t.val + p.val) :
    (iblk3 V c 2 t : Vec Ideal S5000x1 .f32) (ix2 p (0 : Fin 1)) = (V c (Pipeline.arrRef spec3 2) : FVec Ideal S50000x1 .f32) (ix2 r (0 : Fin 1)) := by
  unfold iblk3
  rw [View.read_apply]
  show V c (Pipeline.arrRef spec3 2) _ = V c (Pipeline.arrRef spec3 2) _
  refine congrArg _ ?_
  funext a
  apply Fin.ext
  obtain ⟨-, -, -, -, ea, eb, -⟩ := idx_facts3 t
  match a with
  | ⟨0, _⟩ => show win3_2.index t (0 : Fin 2) * 5000 + 1 * p.val = r.val; rw [ea, hr]; omega
  | ⟨1, _⟩ => show win3_2.index t (1 : Fin 2) * 1 + 1 * 0 = 0; rw [eb]

theorem iblk3_d (c : Dev nD) (t : Fin cfg3.N) :
    (iblk3 V c 3 t : Vec Ideal S1x64 .f32) = (V c (Pipeline.arrRef spec3 3) : FVec Ideal S1x64 .f32) := by
  funext j
  unfold iblk3
  rw [View.read_apply]
  show V c (Pipeline.arrRef spec3 3) _ = V c (Pipeline.arrRef spec3 3) _
  refine congrArg _ ?_
  funext a
  apply Fin.ext
  obtain ⟨-, -, -, -, -, -, ea, eb, -⟩ := idx_facts3 t
  match a with
  | ⟨0, _⟩ => show win3_3.index t (0 : Fin 2) * 1 + 1 * (j 0).val = (j 0).val; rw [ea]; omega
  | ⟨1, _⟩ => show win3_3.index t (1 : Fin 2) * 64 + 1 * (j 1).val = (j 1).val; rw [eb]; omega

theorem blk3_eq (A H : FVec Ideal S50000x64 .f32) (iv : FVec Ideal Cert.ReferenceIdeal.S50000 .f32) (b : FVec Ideal Cert.ReferenceIdeal.S64 .f32)
    (xa xb : FVec Ideal S5000x64 .f32) (xc : FVec Ideal S5000x1 .f32) (xd : FVec Ideal S1x64 .f32)
    (p : Fin 5000) (q : Fin 64) (r : Fin 50000)
    (ha : xa (ix2 p q) = A (ix2 r q)) (hh : xb (ix2 p q) = H (ix2 r q))
    (hc : xc (ix2 p (0 : Fin 1)) = Cert.Spec.col (F := Ideal) iv (ix2 r (0 : Fin 1))) (hd : xd = Cert.Spec.row64 (F := Ideal) b) :
    k3_pay1 (F := Ideal) xa xb xc xd (ix2 p q) = Cert.Spec.combine (F := Ideal) A H iv b (ix2 r q) := by
  rw [body3_apply, combine1_apply, ha, hh, hc, hd]

theorem flushed3_eq (c : Dev nD) (iv : FVec Ideal Cert.ReferenceIdeal.S50000 .f32) (b : FVec Ideal Cert.ReferenceIdeal.S64 .f32)
    (hiv : V c (Pipeline.arrRef spec3 2) = Cert.Spec.col (F := Ideal) iv) (hb : V c (Pipeline.arrRef spec3 3) = Cert.Spec.row64 (F := Ideal) b)
    (t : Fin cfg3.N) :
    (dat3 (F := Ideal) V c).flushed 4 t = ((cfg3.win 4).blk t).view.read (Elt Ideal) (Cert.Spec.combine (F := Ideal) (V c (Pipeline.arrRef spec3 0)) (V c (Pipeline.arrRef spec3 1)) iv b) := by
  show (cfg3.win 4).cut (grid3.coords t) ((dat3 V c).after 4 t) = _
  rw [after3_4]
  unfold out3_4
  rw [View.canon_unit_zero hz1]
  simp only [View.ld_unit_zero (S := S5000x64) hz1, View.ld_unit_zero (S := S5000x1) hz1, View.ld_unit_zero (S := S1x64) hz1]
  funext j
  have hp : (j 0).val < 5000 := (j 0).isLt
  have hq : (j 1).val < 64 := (j 1).isLt
  have ht := lt_N3 t
  obtain ⟨-, -, -, -, -, -, -, -, ea, eb⟩ := idx_facts3 t
  have ej : (cfg3.win 4).xinj (grid3.coords t) j = ix2 (⟨(j 0).val, hp⟩ : Fin 5000) (⟨(j 1).val, hq⟩ : Fin 64) := by
    funext a; match a with | ⟨0, _⟩ => rfl | ⟨1, _⟩ => rfl
  have ei : ((cfg3.win 4).blk t).view.emb j = ix2 (⟨5000 * t.val + (j 0).val, by omega⟩ : Fin 50000) (⟨(j 1).val, hq⟩ : Fin 64) := by
    funext a; apply Fin.ext
    match a with
    | ⟨0, _⟩ => show win3_4.index t (0 : Fin 2) * 5000 + 1 * (j 0).val = 5000 * t.val + (j 0).val; rw [ea]; omega
    | ⟨1, _⟩ => show win3_4.index t (1 : Fin 2) * 64 + 1 * (j 1).val = (j 1).val; rw [eb]; omega
  show k3_pay1 (F := Ideal) (iblk3 V c 0 t) (iblk3 V c 1 t) (iblk3 V c 2 t) (iblk3 V c 3 t) ((cfg3.win 4).xinj (grid3.coords t) j) = Cert.Spec.combine (F := Ideal) (V c (Pipeline.arrRef spec3 0)) (V c (Pipeline.arrRef spec3 1)) iv b (((cfg3.win 4).blk t).view.emb j)
  rw [ej, ei]
  exact blk3_eq (V c (Pipeline.arrRef spec3 0)) (V c (Pipeline.arrRef spec3 1)) iv b (iblk3 V c 0 t) (iblk3 V c 1 t) (iblk3 V c 2 t) (iblk3 V c 3 t) _ _ _
    (iblk3_a V c t _ _ _ rfl) (iblk3_b V c t _ _ _ rfl)
    ((iblk3_c V c t _ _ rfl).trans (congrFun hiv _)) ((iblk3_d V c t).trans hb)

theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole (Pipeline.arrRef spec3 4)).slice (win3_4.rect t)).set ↔ _
  rw [View.set_slice_whole, Rect.mem_set_unit]
  exact Iff.rfl

theorem covered3 (i : S50000x64.Idx) :
    ∃ t : Fin cfg3.N, (cfg3.win 4).flush t = true ∧ i ∈ ((cfg3.win 4).blk t).view.set := by
  have hr : (i 0).val < 50000 := (i 0).isLt
  have hq : (i 1).val < 64 := (i 1).isLt
  obtain ⟨t, ht⟩ := idx_onto3 ⟨(i 0).val / 5000, by omega⟩
  have ht' : t.val = (i 0).val / 5000 := ht
  obtain ⟨-, -, -, -, -, -, -, -, ea, eb⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [ea]; omega
  | ⟨1, _⟩ => show win3_4.index t (1 : Fin 2) * 64 ≤ (i 1).val ∧ (i 1).val < win3_4.index t (1 : Fin 2) * 64 + 64; rw [eb]; omega

theorem final3 (c : Dev nD) (iv : FVec Ideal Cert.ReferenceIdeal.S50000 .f32) (b : FVec Ideal Cert.ReferenceIdeal.S64 .f32)
    (hiv : V c (Pipeline.arrRef spec3 2) = Cert.Spec.col (F := Ideal) iv) (hb : V c (Pipeline.arrRef spec3 3) = Cert.Spec.row64 (F := Ideal) b) :
    (dat3 (F := Ideal) V c).arrAt 4 cfg3.N = Cert.Spec.combine (F := Ideal) (V c (Pipeline.arrRef spec3 0)) (V c (Pipeline.arrRef spec3 1)) iv b :=
  (dat3 (F := Ideal) V c).arrAt_eq_of_cover 4 _ (fun t _ => flushed3_eq V c iv b hiv hb t) covered3

end Cert.KernelIdeal.Hand

end
-- ==== Proof.KI.Val4a.lean ====
import proofs.«403130_j26560077758926_1_alg».proof.Proof.KI.R4
import Idealize.ShloMosaic.Lib.Pipeline.Value

set_option maxRecDepth 16384

noncomputable section

namespace Cert.KernelIdeal.Hand

open Cert.KernelIdeal Cert.KernelIdeal.Gen Idealize.ShloMosaic Idealize.ShloMosaic.Tactic

theorem hz : (![0, 0] : Fin 2 → Nat) = fun _ => 0 := funext fun a => by fin_cases a <;> rfl

variable {F : FTy → Type} [FloatOps F] (c : Dev nD) (i : grid4.Coords)
  (arg1 : Memref sig .tc .vmem S5000x64 .f32) (harg1 : arg1.IsWhole) (arg2 : Memref sig .tc .vmem S5000x1 .i32) (harg2 : arg2.IsWhole)
  (arg3 : Memref sig .tc .vmem S64x8 .f32) (harg3 : arg3.IsWhole) (arg4 : Memref sig .tc .vmem S1x8 .f32) (harg4 : arg4.IsWhole)
  (arg5 : Memref sig .tc .vmem S128x8 .f32) (harg5 : arg5.IsWhole) (arg6 : Memref sig .tc .vmem S64x128 .f32) (harg6 : arg6.IsWhole)
  (arg7 : Memref sig .tc .vmem S1x128 .f32) (harg7 : arg7.IsWhole)
  (x0 : Vec F S5000x64 .f32) (x1 : Vec F S5000x1 .i32) (x2 : Vec F S64x8 .f32) (x3 : Vec F S1x8 .f32)
  (xs0 : Vec F S64x128 .f32) (xs1 : Vec F S1x128 .f32)

theorem sout4_A_0_eq (hc0 : cond4_0 i) (hc1 : ¬cond4_1 i) :
    sout4_A_0 (F := F) c i arg1 harg1 arg2 harg2 arg3 harg3 arg4 harg4 arg5 harg5 arg6 harg6 arg7 harg7 hc0 hc1 x0 x1 x2 x3 = k4_pay4 x0 x1 (k4_pay1 (F := F)) := by
  unfold sout4_A_0
  rw [View.read_writes_eq_canon _ _ _ fun y => scover4_A_0 (y := y) ..]
  unfold kernelRun4_A
  dsimp only
  sl_unfold_words
  rw [View.canon_cons_unit_zero (S := S64x128) hz]
  simp only [View.readAt_eq_ld, harg1.read_unread, harg2.read_unread, View.ld_unit_zero (S := S5000x64) hz, View.ld_unit_zero (S := S5000x1) hz, View.readCov_unit_zero (S := S64x128) _ hz]

theorem sout4_A_1_eq (hc0 : cond4_0 i) (hc1 : ¬cond4_1 i) :
    sout4_A_1 (F := F) c i arg1 harg1 arg2 harg2 arg3 harg3 arg4 harg4 arg5 harg5 arg6 harg6 arg7 harg7 hc0 hc1 x0 x1 x2 x3 = k4_pay5 x1 (k4_pay2 (F := F)) := by
  unfold sout4_A_1
  rw [View.read_writes_eq_canon _ _ _ fun y => scover4_A_1 (y := y) ..]
  unfold kernelRun4_A
  dsimp only
  sl_unfold_words
  rw [View.canon_cons_unit_zero (S := S1x128) hz]
  simp only [View.readAt_eq_ld, harg2.read_unread, View.ld_unit_zero (S := S5000x1) hz, View.readCov_unit_zero (S := S1x128) _ hz]

theorem sout4_B_0_eq (hc0 : ¬cond4_0 i) (hc1 : ¬cond4_1 i) :
    sout4_B_0 (F := F) c i arg1 harg1 arg2 harg2 arg3 harg3 arg4 harg4 arg5 harg5 arg6 harg6 arg7 harg7 hc0 hc1 x0 x1 x2 x3 xs0 xs1 = k4_pay4 x0 x1 xs0 := by
  unfold sout4_B_0
  rw [View.read_writes_eq_canon _ _ _ fun y => scover4_B_0 (y := y) ..]
  unfold kernelRun4_B
  dsimp only
  sl_unfold_words
  rw [View.canon_cons_unit_zero (S := S64x128) hz]
  simp only [View.readAt_eq_ld, harg1.read_unread, harg2.read_unread, View.ld_unit_zero (S := S5000x64) hz, View.ld_unit_zero (S := S5000x1) hz, harg6.read_unread, View.ld_unit_zero (S := S64x128) hz]

theorem sout4_B_1_eq (hc0 : ¬cond4_0 i) (hc1 : ¬cond4_1 i) :
    sout4_B_1 (F := F) c i arg1 harg1 arg2 harg2 arg3 harg3 arg4 harg4 arg5 harg5 arg6 harg6 arg7 harg7 hc0 hc1 x0 x1 x2 x3 xs0 xs1 = k4_pay5 x1 xs1 := by
  unfold sout4_B_1
  rw [View.read_writes_eq_canon _ _ _ fun y => scover4_B_1 (y := y) ..]
  unfold kernelRun4_B
  dsimp only
  sl_unfold_words
  rw [View.canon_cons_unit_zero (S := S1x128) hz]
  simp only [View.readAt_eq_ld, harg2.read_unread, View.ld_unit_zero (S := S5000x1) hz, harg7.read_unread, View.ld_unit_zero (S := S1x128) hz]

theorem sout4_C_0_eq (hc0 : ¬cond4_0 i) (hc1 : cond4_1 i) :
    sout4_C_0 (F := F) c i arg1 harg1 arg2 harg2 arg3 harg3 arg4 harg4 arg5 harg5 arg6 harg6 arg7 harg7 hc0 hc1 x0 x1 x2 x3 xs0 xs1 = k4_pay4 x0 x1 xs0 := by
  unfold sout4_C_0
  rw [View.read_writes_eq_canon _ _ _ fun y => scover4_C_0 (y := y) ..]
  unfold kernelRun4_C
  dsimp only
  sl_unfold_words
  rw [View.canon_cons_unit_zero (S := S64x128) hz]
  simp only [View.readAt_eq_ld, harg1.read_unread, harg2.read_unread, View.ld_unit_zero (S := S5000x64) hz, View.ld_unit_zero (S := S5000x1) hz, harg6.read_unread, View.ld_unit_zero (S := S64x128) hz]

theorem sout4_C_1_eq (hc0 : ¬cond4_0 i) (hc1 : cond4_1 i) :
    sout4_C_1 (F := F) c i arg1 harg1 arg2 harg2 arg3 harg3 arg4 harg4 arg5 harg5 arg6 harg6 arg7 harg7 hc0 hc1 x0 x1 x2 x3 xs0 xs1 = k4_pay5 x1 xs1 := by
  unfold sout4_C_1
  rw [View.read_writes_eq_canon _ _ _ fun y => scover4_C_1 (y := y) ..]
  unfold kernelRun4_C
  dsimp only
  sl_unfold_words
  rw [View.canon_cons_unit_zero (S := S1x128) hz]
  simp only [View.readAt_eq_ld, harg2.read_unread, View.ld_unit_zero (S := S5000x1) hz, harg7.read_unread, View.ld_unit_zero (S := S1x128) hz]

theorem out4_C_4_eq (hc0 : ¬cond4_0 i) (hc1 : cond4_1 i) :
    out4_C_4 (F := F) c i arg1 harg1 arg2 harg2 arg3 harg3 arg4 harg4 arg5 harg5 arg6 harg6 arg7 harg7 hc0 hc1 x0 x1 x2 x3 xs0 xs1 = k4_pay6 (k4_pay4 x0 x1 xs0) (k4_pay5 x1 xs1) x2 x3 := by
  unfold out4_C_4
  rw [View.read_writes_eq_canon _ _ _ fun y => cover4_C_4 (y := y) ..]
  unfold kernelRun4_C
  dsimp only
  sl_unfold_words
  rw [View.canon_cons_unit_zero (S := S128x8) hz]
  simp only [View.readAt_eq_ld, harg1.read_unread, harg2.read_unread, View.ld_unit_zero (S := S5000x64) hz, View.ld_unit_zero (S := S5000x1) hz, harg3.read_unread, harg4.read_unread, harg6.read_unread, harg7.read_unread,
    View.ld_unit_zero (S := S64x8) hz, View.ld_unit_zero (S := S1x8) hz, View.ld_unit_zero (S := S64x128) hz, View.ld_unit_zero (S := S1x128) hz, View.readCov_unit_zero (S := S64x128) _ hz, View.readCov_unit_zero (S := S1x128) _ hz]

end Cert.KernelIdeal.Hand

end
-- ==== Proof.KI.Pay4.lean ====
import proofs.«403130_j26560077758926_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen Idealize.ShloMosaic Idealize.ShloMosaic.ValueIdx

theorem pay1_apply (f : Fin 64) (g : Fin 128) : k4_pay1 (F := Ideal) (ix2 f g) = 0 := by
  unfold k4_pay1
  rw [shapeCast_self]
  exact Ideal.ofBits_zero_f32

theorem pay2_apply (g : Fin 128) : k4_pay2 (F := Ideal) (ix2 0 g) = 0 := by
  unfold k4_pay2
  rw [shapeCast_self]
  exact Ideal.ofBits_zero_f32

def onehot (v5 : Vec Ideal S5000x1 .i32) (n : Fin 5000) (g : Fin 128) : EReal :=
  if v5 (ix2 n 0) = BitVec.ofNat 32 g.val then 1 else 0

-- The one-bit comparison word, widened and read signed, is 1 where the two words agree and 0 elsewhere.
theorem eqWord_toInt (x y : BitVec 32) :
    ((((IntOp.cmpi .eq x y).setWidth 32).toInt : ℝ) : EReal) = if x = y then 1 else 0 := by
  have h1 : ∀ b : Bool, ((BitVec.ofBool b).setWidth 32).toInt = if b then 1 else 0 := by decide
  show ((((BitVec.ofBool (x == y)).setWidth 32).toInt : ℝ) : EReal) = _
  rw [h1]
  by_cases h : x = y <;> simp [h]

theorem pay3_apply (v5 : Vec Ideal S5000x1 .i32) (n : Fin 5000) (g : Fin 128) :
    k4_pay3 (F := Ideal) v5 (ix2 n g) = onehot v5 n g := by
  unfold k4_pay3
  rw [shapeCast_self]
  show FloatOps.sitofp (F := Ideal) .f32
      ((IntOp.cmpi .eq (broadcastTo S5000x128 v5 broadcasts_S5000x1_S5000x128 (ix2 n g))
        (iota .tc S5000x128 32 [1] iota_S5000x128_d1_w32 (ix2 n g))).setWidth 32) = _
  rw [broadcastTo_apply v5 broadcasts_S5000x1_S5000x128 (ix2 n g) (ix2 n 0)
        (fun a => by match a with | ⟨0, _⟩ => rfl | ⟨1, _⟩ => rfl),
      iota_single_apply]
  exact eqWord_toInt _ _

-- A product that contracts the leading axis of both factors, into zero, at (m, n): the sum over k of l (k, m) * r (k, n).
theorem matmulTN_apply {K M N : ℕ} (wf : DotDims.WF ⟨2, ![K, M]⟩ ⟨2, ![K, N]⟩ ⟨2, ![M, N]⟩ [0] [0] [1] [1] [] [])
    (l : FVec Ideal ⟨2, ![K, M]⟩ .bf16) (r : FVec Ideal ⟨2, ![K, N]⟩ .bf16) (m : Fin M) (n : Fin N) :
    matmul (⟨[0], [0], [1], [1], [], [], wf⟩ : DotDims ⟨2, ![K, M]⟩ ⟨2, ![K, N]⟩ ⟨2, ![M, N]⟩) none l r
        (constant (F := Ideal) ⟨2, ![M, N]⟩ .f32 0x00000000#32) (ix2 m n)
      = ∑ k : Fin K, l (ix2 k m) * r (ix2 k n) := by
  simp only [matmul]
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  refine congrArg₂ (fun a b => l a * r b) (funext fun a => Fin.ext ?_) (funext fun a => Fin.ext ?_)
  · match a with
    | ⟨0, _⟩ => exact (DotDims.lhsIdx_val_of_single _ rfl _ _).trans hk
    | ⟨1, _⟩ =>
      unfold DotDims.lhsIdx
      rw [dif_neg (by simp), dif_pos (by simp)]
      rfl
  · match a with
    | ⟨0, _⟩ => exact (DotDims.rhsIdx_val_of_single _ rfl _ _).trans hk
    | ⟨1, _⟩ =>
      unfold DotDims.rhsIdx
      rw [dif_neg (by simp), dif_pos (by simp)]
      rfl

theorem pay4_apply (v3 : Vec Ideal S5000x64 .f32) (v5 : Vec Ideal S5000x1 .i32) (v17 : Vec Ideal S64x128 .f32)
    (f : Fin 64) (g : Fin 128) :
    k4_pay4 (F := Ideal) v3 v5 v17 (ix2 f g) = v17 (ix2 f g) + ∑ n : Fin 5000, v3 (ix2 n f) * onehot v5 n g := by
  unfold k4_pay4
  rw [shapeCast_self, shapeCast_self]
  refine congrArg (v17 (ix2 f g) + ·) ((matmulTN_apply _ _ _ f g).trans ?_)
  exact Finset.sum_congr rfl fun n _ => congrArg (v3 (ix2 n f) * ·) (pay3_apply v5 n g)

theorem pay5_apply (v5 : Vec Ideal S5000x1 .i32) (v22 : Vec Ideal S1x128 .f32) (g : Fin 128) :
    k4_pay5 (F := Ideal) v5 v22 (ix2 0 g) = v22 (ix2 0 g) + ∑ n : Fin 5000, onehot v5 n g := by
  unfold k4_pay5
  rw [shapeCast_self]
  refine congrArg (v22 (ix2 0 g) + ·) ((shapeCast_a_1a_apply _ shapeCasts_S128_S1x128 0 g).trans ?_)
  refine (Ideal.multiReduction_add_single (k4_pay3 (F := Ideal) v5) 0x00000000#32 reduces_S5000x128_S128 (.inl rfl) rfl (ix1 g)).trans ?_
  refine Finset.sum_congr rfl fun n _ => ?_
  have hn : reduces_S5000x128_S128.lift (ix1 g) n = ix2 n g := funext fun a => Fin.ext (by
    match a with
    | ⟨0, _⟩ => rfl
    | ⟨1, _⟩ => rfl)
  exact (congrArg _ hn).trans (pay3_apply v5 n g)

theorem pay6_apply (v30 : Vec Ideal S64x128 .f32) (v31 : Vec Ideal S1x128 .f32) (v37 : Vec Ideal S64x8 .f32)
    (v40 : Vec Ideal S1x8 .f32) (g : Fin 128) (o : Fin 8) :
    k4_pay6 (F := Ideal) v30 v31 v37 v40 (ix2 g o)
      = (∑ f : Fin 64, Ideal.div (v30 (ix2 f g)) (max (v31 (ix2 0 g)) 1) * v37 (ix2 f o)) + v40 (ix2 0 o) := by
  unfold k4_pay6
  rw [shapeCast_self]
  show _ + broadcastTo S128x8 v40 broadcasts_S1x8_S128x8 (ix2 g o) = _
  rw [broadcastTo_1b_ab_apply v40 broadcasts_S1x8_S128x8 g o]
  refine congrArg (· + v40 (ix2 0 o)) ((matmulTN_apply _ _ _ g o).trans ?_)
  refine Finset.sum_congr rfl fun f _ => ?_
  show Ideal.div (v30 (ix2 f g))
      (broadcastTo S64x128 (maximumf v31 (broadcast S1x128 (Scalar.ofBits (F := Ideal) .f32 0x3F800000#32)))
        broadcasts_S1x128_S64x128 (ix2 f g)) * v37 (ix2 f o) = _
  rw [broadcastTo_1b_ab_apply _ broadcasts_S1x128_S64x128 f g]
  show Ideal.div (v30 (ix2 f g)) (max (v31 (ix2 0 g)) (Ideal.ofBits .f32 0x3F800000#32)) * v37 (ix2 f o) = _
  rw [Ideal.ofBits_one_f32]

end Cert.KernelIdeal.Hand

end
-- ==== Proof.KI.Tiles.lean ====
import proofs.«403130_j26560077758926_1_alg».proof.Proof.PoolAt
import proofs.«403130_j26560077758926_1_alg».proof.Proof.KI.Pay4

set_option maxRecDepth 16384

noncomputable section

namespace Cert.KernelIdeal.Hand

open Cert.KernelIdeal Idealize.ShloMosaic Idealize.ShloMosaic.ValueIdx

-- The sum of `φ` over tile `q`, the nodes `5000 * q + p`.
def tile (φ : Fin 50000 → EReal) (q : ℕ) : EReal :=
  if hq : q < 10 then ∑ p : Fin 5000, φ (finProdFinEquiv (⟨q, hq⟩, p)) else 0

-- The sum of `φ` over the first `k` tiles.
def acc (φ : Fin 50000 → EReal) (k : ℕ) : EReal := ∑ q ∈ Finset.range k, tile φ q

-- The ten tiles are all the nodes: a node is a pair of a tile and a place in it.
theorem acc_ten (φ : Fin 50000 → EReal) : acc φ 10 = ∑ n, φ n :=
  (Fin.sum_univ_eq_sum_range (tile φ) 10).symm.trans <| (Finset.sum_congr rfl fun q _ => dif_pos q.isLt).trans <|
    (Fintype.sum_prod_type fun x => φ (finProdFinEquiv (m := 10) (n := 5000) x)).symm.trans (Equiv.sum_comp _ φ)

theorem acc_zero (φ : Fin 50000 → EReal) : acc φ 0 = 0 := Finset.sum_range_zero (tile φ)

theorem acc_step (φ : Fin 50000 → EReal) (k : ℕ) (hk : k < 10) (T : Fin 5000 → EReal)
    (hT : ∀ (p : Fin 5000) (r : Fin 50000), r.val = 5000 * k + p.val → T p = φ r) : acc φ k + ∑ p, T p = acc φ (k + 1) := by
  unfold acc
  rw [Finset.sum_range_succ, tile, dif_pos hk]
  exact congrArg _ (Finset.sum_congr rfl fun p _ => hT p _ (Nat.add_comm _ _))

variable (h : FVec Ideal Cert.ReferenceIdeal.S50000x64 .f32) (batch : IVec Cert.ReferenceIdeal.S50000 32)

def accS (k : ℕ) (g : Fin 128) (f : Fin 64) : EReal :=
  acc (fun n => if batch (ix1 n) = BitVec.ofNat 32 g.val then h (ix2 n f) else 0) k

def accC (k : ℕ) (g : Fin 128) : EReal := acc (fun n => if batch (ix1 n) = BitVec.ofNat 32 g.val then 1 else 0) k

theorem accS_zero (g : Fin 128) (f : Fin 64) : accS h batch 0 g f = 0 := acc_zero _

theorem accC_zero (g : Fin 128) : accC batch 0 g = 0 := acc_zero _

theorem accS_ten (g : Fin 128) (f : Fin 64) : accS h batch 10 g f = Cert.Spec.segSum h batch g f := acc_ten _

theorem accC_ten (g : Fin 128) : accC batch 10 g = Cert.Spec.segCnt batch g := acc_ten _

theorem accS_step (k : ℕ) (hk : k < 10) (v3 : Vec Ideal S5000x64 .f32) (v5 : Vec Ideal S5000x1 .i32)
    (h3 : ∀ (p : Fin 5000) (f : Fin 64) (r : Fin 50000), r.val = 5000 * k + p.val → v3 (ix2 p f) = h (ix2 r f))
    (h5 : ∀ (p : Fin 5000) (r : Fin 50000), r.val = 5000 * k + p.val → v5 (ix2 p (0 : Fin 1)) = batch (ix1 r))
    (g : Fin 128) (f : Fin 64) :
    accS h batch k g f + ∑ n : Fin 5000, v3 (ix2 n f) * onehot v5 n g = accS h batch (k + 1) g f :=
  acc_step _ k hk _ fun p r hr => by
    show v3 (ix2 p f) * (if v5 (ix2 p (0 : Fin 1)) = BitVec.ofNat 32 g.val then (1 : EReal) else 0)
      = if batch (ix1 r) = BitVec.ofNat 32 g.val then h (ix2 r f) else 0
    rw [h3 p f r hr, h5 p r hr, mul_ite, mul_one, mul_zero]

theorem accC_step (k : ℕ) (hk : k < 10) (v5 : Vec Ideal S5000x1 .i32)
    (h5 : ∀ (p : Fin 5000) (r : Fin 50000), r.val = 5000 * k + p.val → v5 (ix2 p (0 : Fin 1)) = batch (ix1 r))
    (g : Fin 128) : accC batch k g + ∑ n : Fin 5000, onehot v5 n g = accC batch (k + 1) g :=
  acc_step _ k hk _ fun p r hr => by
    show (if v5 (ix2 p (0 : Fin 1)) = BitVec.ofNat 32 g.val then (1 : EReal) else 0) = _
    rw [h5 p r hr]

end Cert.KernelIdeal.Hand

end
-- ==== Proof.KI.Val4.lean ====
import proofs.«403130_j26560077758926_1_alg».proof.Proof.KI.Val4a
import proofs.«403130_j26560077758926_1_alg».proof.Proof.KI.Tiles

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)
  (batch : IVec Cert.ReferenceIdeal.S50000 32) (bfc : FVec Ideal Cert.ReferenceIdeal.S8 .f32)

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem lt_N4 (t : Fin cfg4.N) : t.val < 10 := by have := t.isLt; have h : cfg4.N = 10 := N_4; omega

-- The rows' block at point `t` is rows `5000 * t + p` of the node array.
theorem iblk4_a (t : Fin cfg4.N) (p : Fin 5000) (k : Fin 64) (r : Fin 50000) (hr : r.val = 5000 * t.val + p.val) :
    (iblk4 V c 0 t : Vec Ideal S5000x64 .f32) (ix2 p k) = (V c (Pipeline.arrRef spec4 0) : FVec Ideal S50000x64 .f32) (ix2 r k) := by
  unfold iblk4
  rw [View.read_apply]
  refine congrArg (V c (Pipeline.arrRef spec4 0)) (funext fun a => Fin.ext ?_)
  obtain ⟨ea, eb, -⟩ := idx_facts4 t
  match a with
  | ⟨0, _⟩ => show win4_0.index t (0 : Fin 2) * 5000 + 1 * p.val = r.val; rw [ea, hr]; omega
  | ⟨1, _⟩ => show win4_0.index t (1 : Fin 2) * 64 + 1 * k.val = k.val; rw [eb]; omega

theorem iblk4_b (t : Fin cfg4.N) (p : Fin 5000) (r : Fin 50000) (hr : r.val = 5000 * t.val + p.val) :
    (iblk4 V c 1 t : Vec Ideal S5000x1 .i32) (ix2 p (0 : Fin 1)) = (V c (Pipeline.arrRef spec4 1) : IVec S50000x1 32) (ix2 r (0 : Fin 1)) := by
  unfold iblk4
  rw [View.read_apply]
  refine congrArg (V c (Pipeline.arrRef spec4 1)) (funext fun a => Fin.ext ?_)
  obtain ⟨-, -, ea, eb, -⟩ := idx_facts4 t
  match a with
  | ⟨0, _⟩ => show win4_1.index t (0 : Fin 2) * 5000 + 1 * p.val = r.val; rw [ea, hr]; omega
  | ⟨1, _⟩ => show win4_1.index t (1 : Fin 2) * 1 + 1 * 0 = 0; rw [eb]

-- The weights' and the bias row's blocks are their whole arrays at every point.
theorem iblk4_c (t : Fin cfg4.N) :
    (iblk4 V c 2 t : Vec Ideal S64x8 .f32) = (V c (Pipeline.arrRef spec4 2) : FVec Ideal S64x8 .f32) := by
  funext j
  unfold iblk4
  rw [View.read_apply]
  refine congrArg (V c (Pipeline.arrRef spec4 2)) (funext fun a => Fin.ext ?_)
  obtain ⟨-, -, -, -, ea, eb, -⟩ := idx_facts4 t
  match a with
  | ⟨0, _⟩ => show win4_2.index t (0 : Fin 2) * 64 + 1 * (j 0).val = (j 0).val; rw [ea]; omega
  | ⟨1, _⟩ => show win4_2.index t (1 : Fin 2) * 8 + 1 * (j 1).val = (j 1).val; rw [eb]; omega

theorem iblk4_d (t : Fin cfg4.N) :
    (iblk4 V c 3 t : Vec Ideal S1x8 .f32) = (V c (Pipeline.arrRef spec4 3) : FVec Ideal S1x8 .f32) := by
  funext j
  unfold iblk4
  rw [View.read_apply]
  refine congrArg (V c (Pipeline.arrRef spec4 3)) (funext fun a => Fin.ext ?_)
  obtain ⟨-, -, -, -, -, -, ea, eb, -⟩ := idx_facts4 t
  match a with
  | ⟨0, _⟩ => show win4_3.index t (0 : Fin 2) * 1 + 1 * (j 0).val = (j 0).val; rw [ea]; omega
  | ⟨1, _⟩ => show win4_3.index t (1 : Fin 2) * 8 + 1 * (j 1).val = (j 1).val; rw [eb]; omega

theorem row8_apply (o : Fin 8) : Cert.Spec.row8 (F := Ideal) bfc (ix2 (0 : Fin 1) o) = bfc (ix1 o) :=
  broadcastInDim_apply _ Cert.ReferenceIdeal.Facts₀.bcast_S8_S1x8_1 bfc _ (ix1 o) fun a => match a with | ⟨0, _⟩ => rfl

-- With the sums and counts over all ten tiles, the body's value at `(g, o)` is the pooling stage's.
theorem blk4_eq (H : FVec Ideal Cert.ReferenceIdeal.S50000x64 .f32) (Wfc : FVec Ideal Cert.ReferenceIdeal.S64x8 .f32)
    (ys0 : Vec Ideal S64x128 .f32) (ys1 : Vec Ideal S1x128 .f32) (x2 : Vec Ideal S64x8 .f32) (x3 : Vec Ideal S1x8 .f32)
    (hs : ∀ (g : Fin 128) (f : Fin 64), ys0 (ix2 f g) = accS H batch 10 g f)
    (hc : ∀ g : Fin 128, ys1 (ix2 0 g) = accC batch 10 g)
    (h2 : x2 = Wfc) (h3 : ∀ o : Fin 8, x3 (ix2 0 o) = bfc (ix1 o)) (i : S128x8.Idx) :
    k4_pay6 (F := Ideal) ys0 ys1 x2 x3 i = Cert.Spec.pool (F := Ideal) H batch Wfc bfc i := by
  obtain ⟨g, o, rfl⟩ : ∃ g o, i = ix2 g o := ⟨i 0, i 1, eq_ix2 i⟩
  rw [pay6_apply, Cert.Spec.pool_apply, h3 o, hc g, accC_ten, h2]
  exact congrArg (· + bfc (ix1 o)) (Finset.sum_congr rfl fun f _ => by rw [hs g f, accS_ten])

theorem idx_last4 : ∃ t : Fin cfg4.N, t.val = 9 :=
  (by decide +kernel : ∃ t : Fin grid4.N, t.val = 9)

-- The block the last point writes back is the whole output array.
theorem covered4 (i : S128x8.Idx) :
    ∃ t : Fin cfg4.N, (cfg4.win 4).flush t = true ∧ i ∈ ((cfg4.win 4).blk t).view.set := by
  have hg : (i 0).val < 128 := (i 0).isLt
  have ho : (i 1).val < 8 := (i 1).isLt
  obtain ⟨t, ht⟩ := idx_last4
  obtain ⟨-, -, -, -, -, -, -, -, ea, eb⟩ := idx_facts4 t
  refine ⟨t, (flush4_4 t).mpr (by rw [ht]), ?_⟩
  show i ∈ ((View.whole (Pipeline.arrRef spec4 4)).slice (win4_4.rect t)).set
  rw [View.set_slice_whole, Rect.mem_set_unit]
  intro a
  match a with
  | ⟨0, _⟩ => show win4_4.index t (0 : Fin 2) * 128 ≤ (i 0).val ∧ (i 0).val < win4_4.index t (0 : Fin 2) * 128 + 128; rw [ea]; omega
  | ⟨1, _⟩ => show win4_4.index t (1 : Fin 2) * 8 ≤ (i 1).val ∧ (i 1).val < win4_4.index t (1 : Fin 2) * 8 + 8; rw [eb]; omega

variable (hb : V c (Pipeline.arrRef spec4 1) = Cert.Spec.colI batch)
include hb

theorem iblk4_b' (t : Fin cfg4.N) (p : Fin 5000) (r : Fin 50000) (hr : r.val = 5000 * t.val + p.val) :
    (iblk4 V c 1 t : Vec Ideal S5000x1 .i32) (ix2 p (0 : Fin 1)) = batch (ix1 r) :=
  (iblk4_b V c t p r hr).trans ((congrFun hb _).trans (Cert.Spec.PoolAt.colI_apply batch r))

-- One point's arithmetic: from the sums and counts over the first `t` tiles to those over the first `t + 1`.
theorem step4 (t : Fin cfg4.N) (xs0 : Vec Ideal S64x128 .f32) (xs1 : Vec Ideal S1x128 .f32)
    (hs : ∀ (g : Fin 128) (f : Fin 64), xs0 (ix2 f g) = accS (V c (Pipeline.arrRef spec4 0)) batch t.val g f)
    (hc : ∀ g : Fin 128, xs1 (ix2 0 g) = accC batch t.val g) :
    (∀ (g : Fin 128) (f : Fin 64), k4_pay4 (F := Ideal) (iblk4 V c 0 t) (iblk4 V c 1 t) xs0 (ix2 f g)
        = accS (V c (Pipeline.arrRef spec4 0)) batch (t.val + 1) g f)
      ∧ ∀ g : Fin 128, k4_pay5 (F := Ideal) (iblk4 V c 1 t) xs1 (ix2 0 g) = accC batch (t.val + 1) g :=
  ⟨fun g f => by
      rw [pay4_apply, hs]
      exact accS_step _ batch t.val (lt_N4 t) _ _ (iblk4_a V c t) (iblk4_b' V c batch hb t) g f,
    fun g => by
      rw [pay5_apply, hc]
      exact accC_step batch t.val (lt_N4 t) _ (iblk4_b' V c batch hb t) g⟩

-- After point `n` the carried buffers hold the sums and the counts over the first `n + 1` tiles.
theorem sums4 : ∀ (n : ℕ) (hn : n < cfg4.N),
    (∀ (g : Fin 128) (f : Fin 64), ((outsAt4 V c n hn).2.1 : Vec Ideal S64x128 .f32) (ix2 f g)
        = accS (V c (Pipeline.arrRef spec4 0)) batch (n + 1) g f)
      ∧ ∀ g : Fin 128, ((outsAt4 V c n hn).2.2 : Vec Ideal S1x128 .f32) (ix2 0 g) = accC batch (n + 1) g
  | 0, hn => by
    rw [outsAt4_A V c ⟨0, hn⟩ rfl (by decide : ¬0 % 10 = 9)]; dsimp only
    rw [sout4_A_0_eq, sout4_A_1_eq]
    exact step4 V c batch hb ⟨0, hn⟩ _ _ (fun g f => by rw [pay1_apply]; exact (accS_zero _ batch g f).symm)
      (fun g => by rw [pay2_apply]; exact (accC_zero batch g).symm)
  | n + 1, hn => by
    obtain ⟨ihS, ihC⟩ := sums4 n (Nat.lt_of_succ_lt hn)
    have hN : n + 1 < 10 := lt_N4 ⟨n + 1, hn⟩
    have h0 : ¬(n + 1) % 10 = 0 := by omega
    by_cases h1 : (n + 1) % 10 = 9
    · rw [outsAt4_C V c ⟨n + 1, hn⟩ h0 h1]; dsimp only
      rw [sout4_C_0_eq, sout4_C_1_eq]
      exact step4 V c batch hb ⟨n + 1, hn⟩ _ _ ihS ihC
    · rw [outsAt4_B V c ⟨n + 1, hn⟩ h0 h1]; dsimp only
      rw [sout4_B_0_eq, sout4_B_1_eq]
      exact step4 V c batch hb ⟨n + 1, hn⟩ _ _ ihS ihC

variable (hbfc : V c (Pipeline.arrRef spec4 3) = Cert.Spec.row8 (F := Ideal) bfc)
include hbfc

-- What the one flushing point writes back is the pooling stage of the arrays.
theorem flushed4_eq (t : Fin cfg4.N) (hf : (cfg4.win 4).flush t = true) :
    (dat4 (F := Ideal) V c).flushed 4 t = ((cfg4.win 4).blk t).view.read (Elt Ideal)
      (Cert.Spec.pool (F := Ideal) (V c (Pipeline.arrRef spec4 0)) batch (V c (Pipeline.arrRef spec4 2)) bfc) := by
  have h1 : t.val % 10 = 9 := (flush4_4 t).mp hf
  have hk : t.val < 10 := lt_N4 t
  have hp : t.val - 1 < cfg4.N := Nat.lt_of_le_of_lt (Nat.sub_le _ _) t.isLt
  obtain ⟨ihS, ihC⟩ := sums4 V c batch hb (t.val - 1) hp
  rw [show t.val - 1 + 1 = t.val by omega] at ihS ihC
  obtain ⟨hS, hC⟩ := step4 V c batch hb t _ _ ihS ihC
  rw [show t.val + 1 = 10 by omega] at hS hC
  show (cfg4.win 4).cut (grid4.coords t) ((dat4 V c).after 4 t) = _
  rw [after4_4, outsAt4_C V c t (by omega) h1]; dsimp only
  rw [out4_C_4_eq]
  funext j
  refine (blk4_eq batch bfc _ _ _ _ _ _ hS hC (iblk4_c V c t)
    (fun o => (congrFun (iblk4_d V c t) _).trans ((congrFun hbfc _).trans (row8_apply bfc o))) _).trans
    (congrArg (Cert.Spec.pool (F := Ideal) (V c (Pipeline.arrRef spec4 0)) batch (V c (Pipeline.arrRef spec4 2)) bfc)
      (funext fun a => Fin.ext ?_))
  obtain ⟨-, -, -, -, -, -, -, -, ea, eb⟩ := idx_facts4 t
  match a with
  | ⟨0, _⟩ => show (j 0).val = win4_4.index t (0 : Fin 2) * 128 + 1 * (j 0).val; rw [ea]; omega
  | ⟨1, _⟩ => show (j 1).val = win4_4.index t (1 : Fin 2) * 8 + 1 * (j 1).val; rw [eb]; omega

-- After the ten points the output array holds the pooling stage of the node array, the graph ids, the weights and the bias.
theorem final4 : (dat4 (F := Ideal) V c).arrAt 4 cfg4.N
      = Cert.Spec.pool (F := Ideal) (V c (Pipeline.arrRef spec4 0)) batch (V c (Pipeline.arrRef spec4 2)) bfc :=
  (dat4 (F := Ideal) V c).arrAt_eq_of_cover 4 _ (fun t hf => flushed4_eq V c batch bfc hb hbfc t hf) covered4

end Cert.KernelIdeal.Hand

end
-- ==== Proof.KI.ValRun.lean ====
import proofs.«403130_j26560077758926_1_alg».proof.Proof.KI.Run
import proofs.«403130_j26560077758926_1_alg».proof.Proof.KI.Host
import proofs.«403130_j26560077758926_1_alg».proof.Proof.KI.Val0
import proofs.«403130_j26560077758926_1_alg».proof.Proof.KI.Val1
import proofs.«403130_j26560077758926_1_alg».proof.Proof.KI.Val2
import proofs.«403130_j26560077758926_1_alg».proof.Proof.KI.Val3
import proofs.«403130_j26560077758926_1_alg».proof.Proof.KI.Val4

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg) (c : Dev nD)

-- An array that no host stage and no kernel region writes: every valuation of the run agrees with the initial memory on it.
abbrev Untouched (r : Ref sig .tc) : Prop :=
  (r ∉ hostOps0_W ∧ r ∉ hostOps1_W ∧ r ∉ hostOps3_W ∧ r ∉ hostOps4_W) ∧ r ≠ main_v29 ∧ r ≠ main_v45 ∧ r ≠ main_v46 ∧ r ≠ main_v62 ∧ r ≠ main_v65

section
variable (r : Ref sig .tc) (h : Untouched r)
include h
theorem W1_un : W1 m ρ c (Proc.devRef .tc r) = m ((c : Thread nD τ).loc r) := W1_of m ρ c r h.1.1
theorem W2_un : W2 m ρ c (Proc.devRef .tc r) = m ((c : Thread nD τ).loc r) := (W2_keep m ρ c r h.2.1).trans (W1_un m ρ c r h)
theorem W3_un : W3 m ρ c (Proc.devRef .tc r) = m ((c : Thread nD τ).loc r) := (W3_of m ρ c r h.1.2.1).trans (W2_un m ρ c r h)
theorem W4_un : W4 m ρ c (Proc.devRef .tc r) = m ((c : Thread nD τ).loc r) := (W4_keep m ρ c r h.2.2.1).trans (W3_un m ρ c r h)
theorem W5_un : W5 m ρ c (Proc.devRef .tc r) = m ((c : Thread nD τ).loc r) := (W5_keep m ρ c r h.2.2.2.1).trans (W4_un m ρ c r h)
theorem W6_un : W6 m ρ c (Proc.devRef .tc r) = m ((c : Thread nD τ).loc r) := (W6_of m ρ c r h.1.2.2.1).trans (W5_un m ρ c r h)
theorem W7_un : W7 m ρ c (Proc.devRef .tc r) = m ((c : Thread nD τ).loc r) := (W7_keep m ρ c r h.2.2.2.2.1).trans (W6_un m ρ c r h)
theorem W8_un : W8 m ρ c (Proc.devRef .tc r) = m ((c : Thread nD τ).loc r) := (W8_of m ρ c r h.1.2.2.2).trans (W7_un m ρ c r h)
end

-- What the first host stage wrote stays until the second layer's aggregation reads it.
theorem W5_W1 (r : Ref sig .tc) (h : r ≠ main_v29 ∧ r ∉ hostOps1_W ∧ r ≠ main_v45 ∧ r ≠ main_v46) :
    W5 m ρ c (Proc.devRef .tc r) = W1 m ρ c (Proc.devRef .tc r) :=
  (W5_keep m ρ c r h.2.2.2).trans ((W4_keep m ρ c r h.2.2.1).trans ((W3_of m ρ c r h.2.1).trans (W2_keep m ρ c r h.1)))

theorem W1_v26 : W1 m ρ c (Proc.devRef .tc main_v26)
    = Cert.Spec.norm (F := Ideal) (m ((c : Thread nD τ).loc main_arg1)) (m ((c : Thread nD τ).loc main_arg2)) :=
  host0_norm (W0 m ρ c)
theorem W1_v28 : W1 m ρ c (Proc.devRef .tc main_v28)
    = Cert.Spec.invdeg (F := Ideal) (m ((c : Thread nD τ).loc main_arg2)) :=
  host0_invdeg (W0 m ρ c)

theorem W2_v29 : W2 m ρ c (Proc.devRef .tc main_v29)
    = Cert.Spec.mm (F := Ideal) (m ((c : Thread nD τ).loc main_arg0)) (m ((c : Thread nD τ).loc main_arg4)) := by
  refine (W2_arr m ρ c 2).trans ((final0 (V1 m ρ) c).trans ?_)
  show Cert.Spec.mm (F := Ideal) (W1 m ρ c (Proc.devRef .tc main_arg0)) (W1 m ρ c (Proc.devRef .tc main_arg4)) = _
  rw [W1_un m ρ c main_arg0 (by decide), W1_un m ρ c main_arg4 (by decide)]

theorem W3_v42 : W3 m ρ c (Proc.devRef .tc main_v42)
    = Cert.Spec.agg (F := Ideal)
        (Cert.Spec.mm (F := Ideal) (m ((c : Thread nD τ).loc main_arg0)) (m ((c : Thread nD τ).loc main_arg4)))
        (m ((c : Thread nD τ).loc main_arg1)) (m ((c : Thread nD τ).loc main_arg2)) := by
  refine (host1_agg (W2 m ρ c)).trans ?_
  rw [W2_v29 m ρ c, W2_keep m ρ c main_v26 (by decide), W1_v26 m ρ c, W2_un m ρ c main_arg1 (by decide), W2_un m ρ c main_arg2 (by decide)]
  rfl
theorem W3_v43 : W3 m ρ c (Proc.devRef .tc main_v43)
    = Cert.Spec.row64 (F := Ideal) (m ((c : Thread nD τ).loc main_arg5)) := by
  refine (host1_b (W2 m ρ c)).trans ?_
  rw [W2_un m ρ c main_arg5 (by decide)]
theorem W3_v44 : W3 m ρ c (Proc.devRef .tc main_v44)
    = Cert.Spec.col (F := Ideal) (Cert.Spec.invdeg (F := Ideal) (m ((c : Thread nD τ).loc main_arg2))) := by
  refine (host1_iv (W2 m ρ c)).trans ?_
  rw [W2_keep m ρ c main_v28 (by decide), W1_v28 m ρ c]

abbrev layerOut1 : FVec Ideal Cert.ReferenceIdeal.S50000x64 .f32 :=
  Cert.Spec.layer (F := Ideal) (m ((c : Thread nD τ).loc main_arg0)) (m ((c : Thread nD τ).loc main_arg4))
    (m ((c : Thread nD τ).loc main_arg5)) (m ((c : Thread nD τ).loc main_arg1)) (m ((c : Thread nD τ).loc main_arg2))

theorem W4_v45 : W4 m ρ c (Proc.devRef .tc main_v45) = layerOut1 m c := by
  refine (W4_arr m ρ c 4).trans ((final1 (V3 m ρ) c _ _ (W3_v44 m ρ c) (W3_v43 m ρ c)).trans ?_)
  show Cert.Spec.combine (F := Ideal) (W3 m ρ c (Proc.devRef .tc main_v42)) (W3 m ρ c (Proc.devRef .tc main_v29)) _ _ = _
  rw [W3_v42 m ρ c, W3_of m ρ c main_v29 (by decide), W2_v29 m ρ c]
  rfl

theorem W5_v46 : W5 m ρ c (Proc.devRef .tc main_v46)
    = Cert.Spec.mm (F := Ideal) (layerOut1 m c) (m ((c : Thread nD τ).loc main_arg6)) := by
  refine (W5_arr m ρ c 2).trans ((final2 (V4 m ρ) c).trans ?_)
  show Cert.Spec.mm (F := Ideal) (W4 m ρ c (Proc.devRef .tc main_v45)) (W4 m ρ c (Proc.devRef .tc main_arg6)) = _
  rw [W4_v45 m ρ c, W4_un m ρ c main_arg6 (by decide)]

theorem W6_v59 : W6 m ρ c (Proc.devRef .tc main_v59)
    = Cert.Spec.agg (F := Ideal) (Cert.Spec.mm (F := Ideal) (layerOut1 m c) (m ((c : Thread nD τ).loc main_arg6)))
        (m ((c : Thread nD τ).loc main_arg1)) (m ((c : Thread nD τ).loc main_arg2)) := by
  refine (host3_agg (W5 m ρ c)).trans ?_
  rw [W5_v46 m ρ c, W5_W1 m ρ c main_v26 (by decide), W1_v26 m ρ c, W5_un m ρ c main_arg1 (by decide),
    W5_un m ρ c main_arg2 (by decide)]
  rfl
theorem W6_v60 : W6 m ρ c (Proc.devRef .tc main_v60)
    = Cert.Spec.row64 (F := Ideal) (m ((c : Thread nD τ).loc main_arg7)) := by
  refine (host3_b (W5 m ρ c)).trans ?_
  rw [W5_un m ρ c main_arg7 (by decide)]
theorem W6_v61 : W6 m ρ c (Proc.devRef .tc main_v61)
    = Cert.Spec.col (F := Ideal) (Cert.Spec.invdeg (F := Ideal) (m ((c : Thread nD τ).loc main_arg2))) := by
  refine (host3_iv (W5 m ρ c)).trans ?_
  rw [W5_W1 m ρ c main_v28 (by decide), W1_v28 m ρ c]

abbrev layerOut2 : FVec Ideal Cert.ReferenceIdeal.S50000x64 .f32 :=
  Cert.Spec.layer (F := Ideal) (layerOut1 m c) (m ((c : Thread nD τ).loc main_arg6))
    (m ((c : Thread nD τ).loc main_arg7)) (m ((c : Thread nD τ).loc main_arg1)) (m ((c : Thread nD τ).loc main_arg2))

theorem W7_v62 : W7 m ρ c (Proc.devRef .tc main_v62) = layerOut2 m c := by
  refine (W7_arr m ρ c 4).trans ((final3 (V6 m ρ) c _ _ (W6_v61 m ρ c) (W6_v60 m ρ c)).trans ?_)
  show Cert.Spec.combine (F := Ideal) (W6 m ρ c (Proc.devRef .tc main_v59)) (W6 m ρ c (Proc.devRef .tc main_v46)) _ _ = _
  rw [W6_v59 m ρ c, W6_of m ρ c main_v46 (by decide), W5_v46 m ρ c]
  rfl

theorem W8_v63 : W8 m ρ c (Proc.devRef .tc main_v63)
    = Cert.Spec.colI (m ((c : Thread nD τ).loc main_arg3)) := by
  refine (host4_batch (W7 m ρ c)).trans ?_
  rw [W7_un m ρ c main_arg3 (by decide)]
theorem W8_v64 : W8 m ρ c (Proc.devRef .tc main_v64)
    = Cert.Spec.row8 (F := Ideal) (m ((c : Thread nD τ).loc main_arg9)) := by
  refine (host4_bfc (W7 m ρ c)).trans ?_
  rw [W7_un m ρ c main_arg9 (by decide)]

theorem W9_value (m : (ℓ : Loc nD τ sig) → Buf (Elt Ideal) ℓ) (ρ : Dev nD → PrngReg) (c : Dev nD) :
    W9 (F := Ideal) m ρ c (Proc.devRef .tc main_v65)
      = Cert.Spec.net (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  refine (W9_main_v65 m ρ c).trans ((final4 (V8 m ρ) c _ _ (W8_v63 m ρ c) (W8_v64 m ρ c)).trans ?_)
  show Cert.Spec.pool (F := Ideal) (W8 m ρ c (Proc.devRef .tc main_v62)) _ (W8 m ρ c (Proc.devRef .tc main_arg8)) _ = _
  rw [W8_of m ρ c main_v62 (by decide), W7_v62 m ρ c, W8_un m ρ c main_arg8 (by decide)]
  rfl

end Cert.KernelIdeal.Hand

end
-- ==== Proof.Ref.RefVal.lean ====
import proofs.«403130_j26560077758926_1_alg».proof.Proof.Gen.ReferenceIdeal.Run
import proofs.«403130_j26560077758926_1_alg».proof.Proof.Spec

set_option maxRecDepth 8192

noncomputable section

namespace Cert.RefVal

open Cert.ReferenceIdeal Idealize.ShloMosaic Idealize.ShloMosaic.TcCoe Idealize.SL.Sem

variable {F : FTy → Type} [FloatOps F]

theorem ref_eq (m : (ℓ : Loc nD τ sig) → Buf (Elt F) ℓ) (c : Dev nD) :
    Cert.ReferenceIdeal.Value.res_main_v117 m c
      = Cert.Spec.net (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v117 Cert.Spec.net Cert.Spec.pool Cert.Spec.layer Cert.Spec.combine Cert.Spec.agg Cert.Spec.aggN Cert.Spec.col Cert.Spec.colI Cert.Spec.row64 Cert.Spec.row8 Cert.Spec.mm Cert.Spec.invdeg Cert.Spec.norm Cert.Spec.deg Cert.Spec.wrapIdx
  rfl

end Cert.RefVal

end
-- ==== Proof.Claims.lean ====
import proofs.«403130_j26560077758926_1_alg».proof.Defs
import proofs.«403130_j26560077758926_1_alg».proof.Proof.Gen.Kernel
import proofs.«403130_j26560077758926_1_alg».proof.Proof.Gen.KernelIdeal
import proofs.«403130_j26560077758926_1_alg».proof.Proof.Gen.ReferenceIdeal
import proofs.«403130_j26560077758926_1_alg».proof.Proof.Gen.Pre_finite_inputs
import proofs.«403130_j26560077758926_1_alg».proof.Proof.Gen.ReferenceIdeal.Run
import proofs.«403130_j26560077758926_1_alg».proof.Proof.K.Run
import proofs.«403130_j26560077758926_1_alg».proof.Proof.KI.Run
import proofs.«403130_j26560077758926_1_alg».proof.Proof.KI.ValRun
import proofs.«403130_j26560077758926_1_alg».proof.Proof.Ref.RefVal

set_option maxRecDepth 16384

noncomputable section

namespace Cert.Proof.Claims

open Idealize.ShloMosaic Idealize.ShloMosaic.TcCoe Idealize.SL.Sem

/-- The word-level program runs to the end without a fault and leaves its arguments as launched. -/
theorem frame_k : Cert.frame_Kernel := fun m ρ _ => Cert.Kernel.Hand.frame m ρ

/-- The same text read at the ideal values. -/
theorem frame_ki : Cert.frame_KernelIdeal := fun m ρ _ => Cert.KernelIdeal.Hand.frame m ρ

/-- The reference launches no kernel: its frame is its run with the value forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing, so there is nothing to state. -/
theorem preserves : Cert.preserves_Kernel_KernelIdeal := trivial

/-- Both programs end with their result at `net` of their arguments, and the two memories agree on those. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_all m ρ)
    refine ⟨(h c _ (Cert.KernelIdeal.Hand.mem_uc Cert.KernelIdeal.main_v65 (by decide))).trans (Cert.KernelIdeal.Hand.W9_value m ρ c),
      ?_, ?_, ?_, ?_, ?_, ?_, ?_, ?_, ?_, ?_⟩ <;>
      exact (h c _ (Cert.KernelIdeal.Hand.mem_uc _ (by decide))).trans (Cert.KernelIdeal.Hand.W9_of_unwritten m ρ c _ (by decide))
  · refine (θ_run Cert.ReferenceIdeal.defs _ _).mono (fun r h c => ⟨(h c).1.trans ?_, (h c).2⟩)
      (Cert.ReferenceIdeal.Value.run (F := Ideal) m' ρ')
    rw [Cert.RefVal.ref_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2]

end Cert.Proof.Claims

end
-- ==== Proof.lean ====
import proofs.«403130_j26560077758926_1_alg».proof.Defs
import proofs.«403130_j26560077758926_1_alg».proof.Proof.Claims
import proofs.«403130_j26560077758926_1_alg».proof.Proof.Gen.Kernel
import proofs.«403130_j26560077758926_1_alg».proof.Proof.Gen.KernelIdeal
import proofs.«403130_j26560077758926_1_alg».proof.Proof.Gen.ReferenceIdeal
import proofs.«403130_j26560077758926_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
